-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v420) = v0 c
          ∧ r.2.mem ((c.tc : Thread Cert.ReferenceIdeal.nD Cert.ReferenceIdeal.τ).loc Cert.ReferenceIdeal.main_v426) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S768 : Shape := ⟨1, ![768]⟩
abbrev S256 : Shape := ⟨1, ![256]⟩
abbrev S16x256 : Shape := ⟨2, ![16, 256]⟩
abbrev S256x256 : Shape := ⟨2, ![256, 256]⟩
abbrev S256x768 : Shape := ⟨2, ![256, 768]⟩
abbrev S768x256 : Shape := ⟨2, ![768, 256]⟩
abbrev S512x256 : Shape := ⟨2, ![512, 256]⟩
abbrev S512 : Shape := ⟨1, ![512]⟩
abbrev S256x512 : Shape := ⟨2, ![256, 512]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768 : S_.BroadcastsInDim S768 (![] : Fin 0 → Fin S768.rank)
  reducesTo_S768_S_d0 : S768.ReducesTo [0] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S256x256 : S_.BroadcastsInDim S256x256 (![] : Fin 0 → Fin S256x256.rank)
  reducesTo_S256x256_S_d0_1 : S256x256.ReducesTo [0, 1] S_
  bcast_S_S256x768 : S_.BroadcastsInDim S256x768 (![] : Fin 0 → Fin S256x768.rank)
  reducesTo_S256x768_S_d0_1 : S256x768.ReducesTo [0, 1] S_
  bcast_S_S768x256 : S_.BroadcastsInDim S768x256 (![] : Fin 0 → Fin S768x256.rank)
  reducesTo_S768x256_S_d0_1 : S768x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part5 {F : FTy → Type} [FloatOps F] (main_arg18 : FVec F S256 .f32) (main_v83 : IVec S_ 1) (main_v84 : FVec F S256x512 .f32) (main_cst_32 : FVec F S_ .f32) : IVec S_ 1 :=
  let main_v85 : FVec F S256x512 .f32 := broadcastInDim S256x512 ![] bcast_S_S256x512 main_cst_32
  let main_v86 : IVec S256x512 1 := cmpf .olt main_v84 main_v85
  let main_c_33 : IVec S_ 1 := constantI S_ 1 1#1
  let main_v87 : IVec S_ 1 := (fun x v => Host.reduce IntOp.andi x v reducesTo_S256x512_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg14 : FVec F S768 .f32) (main_arg15 : FVec F S512x256 .f32) (main_arg16 : FVec F S512 .f32) (main_arg17 : FVec F S256x512 .f32) (main_arg18 : FVec F S256 .f32) (main_v63 : IVec S_ 1) (main_v67 : IVec S_ 1) : IVec S_ 1 :=
  let main_v68 : IVec S_ 1 := andi main_v63 main_v67
  let main_v69 : FVec F S768 .f32 := Host.absf main_arg14
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S512x256 .f32 := Host.absf main_arg15
  let main_cst_28 : FVec F S_ .f32 := constant S_ .f32 0x7F800000#32
  let main_v75 : FVec F S512x256 .f32 := broadcastInDim S512x256 ![] bcast_S_S512x256 main_cst_28
  let main_v76 : IVec S512x256 1 := cmpf .olt main_v74 main_v75
  let main_c_29 : IVec S_ 1 := constantI S_ 1 1#1
  let main_v77 : IVec S_ 1 := (fun x v => Host.reduce IntOp.andi x v reducesTo_S512x256_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S256x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) (main_v48 : IVec S_ 1) (main_v49 : FVec F S256x768 .f32) (main_v50 : FVec F S256x768 .f32) : IVec S_ 1 :=
  let main_v51 : IVec S256x768 1 := cmpf .olt main_v49 main_v50
  let main_c_19 : IVec S_ 1 := constantI S_ 1 1#1
  let main_v52 : IVec S_ 1 := (fun x v => Host.reduce IntOp.andi x v reducesTo_S256x768_S_d0_1 h_S_) main_v51 main_c_19
  let main_v53 : IVec S_ 1 := andi main_v48 main_v52
  let main_v54 : FVec F S768x256 .f32 := Host.absf main_arg11
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S768x256 .f32 := Host.absf main_arg12
  let main_cst_22 : FVec F S_ .f32 := constant S_ .f32 0x7F800000#32
  let main_v60 : FVec F S768x256 .f32 := broadcastInDim S768x256 ![] bcast_S_S768x256 main_cst_22
  let main_v61 : IVec S768x256 1 := cmpf .olt main_v59 main_v60
  let main_c_23 : IVec S_ 1 := constantI S_ 1 1#1
  let main_v62 : IVec S_ 1 := (fun x v => Host.reduce IntOp.andi x v reducesTo_S768x256_S_d0_1 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_arg16 main_arg17 main_arg18 main_v63 main_v67

def fn_part2 {F : FTy → Type} [FloatOps F] (main_arg7 : FVec F S16x256 .f32) (main_arg8 : FVec F S256x256 .f32) (main_arg9 : FVec F S256x768 .f32) (main_arg10 : FVec F S256x768 .f32) (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x768 .f32 := Host.absf main_arg9
  let main_cst_16 : FVec F S_ .f32 := constant S_ .f32 0x7F800000#32
  let main_v45 : FVec F S256x768 .f32 := broadcastInDim S256x768 ![] bcast_S_S256x768 main_cst_16
  let main_v46 : IVec S256x768 1 := cmpf .olt main_v44 main_v45
  let main_c_17 : IVec S_ 1 := constantI S_ 1 1#1
  let main_v47 : IVec S_ 1 := (fun x v => Host.reduce IntOp.andi x v reducesTo_S256x768_S_d0_1 h_S_) main_v46 main_c_17
  let main_v48 : IVec S_ 1 := andi main_v43 main_v47
  let main_v49 : FVec F S256x768 .f32 := Host.absf main_arg10
  let main_cst_18 : FVec F S_ .f32 := constant S_ .f32 0x7F800000#32
  let main_v50 : FVec F S256x768 .f32 := broadcastInDim S256x768 ![] bcast_S_S256x768 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256 .f32) (main_arg6 : FVec F S256 .f32) (main_arg7 : FVec F S16x256 .f32) (main_arg8 : FVec F S256x256 .f32) (main_arg9 : FVec F S256x768 .f32) (main_arg10 : FVec F S256x768 .f32) (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x768 .f32) (main_arg1 : FVec F S768 .f32) (main_arg2 : FVec F S768 .f32) (main_arg3 : FVec F S256 .f32) (main_arg4 : FVec F S256 .f32) (main_arg5 : FVec F S256 .f32) (main_arg6 : FVec F S256 .f32) (main_arg7 : FVec F S16x256 .f32) (main_arg8 : FVec F S256x256 .f32) (main_arg9 : FVec F S256x768 .f32) (main_arg10 : FVec F S256x768 .f32) (main_arg11 : FVec F S768x256 .f32) (main_arg12 : FVec F S768x256 .f32) (main_arg13 : FVec F S768 .f32) (main_arg14 : FVec F S768 .f32) (main_arg15 : FVec F S512x256 .f32) (main_arg16 : FVec F S512 .f32) (main_arg17 : FVec F S256x512 .f32) (main_arg18 : FVec F S256 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x768 : Shape := ⟨2, ![16384, 768]⟩
abbrev S768 : Shape := ⟨1, ![768]⟩
abbrev S256 : Shape := ⟨1, ![256]⟩
abbrev S16x256 : Shape := ⟨2, ![16, 256]⟩
abbrev S256x256 : Shape := ⟨2, ![256, 256]⟩
abbrev S256x768 : Shape := ⟨2, ![256, 768]⟩
abbrev S768x256 : Shape := ⟨2, ![768, 256]⟩
abbrev S512x256 : Shape := ⟨2, ![512, 256]⟩
abbrev S512 : Shape := ⟨1, ![512]⟩
abbrev S256x512 : Shape := ⟨2, ![256, 512]⟩
abbrev S1x768 : Shape := ⟨2, ![1, 768]⟩
abbrev S1x256 : Shape := ⟨2, ![1, 256]⟩
abbrev S1x512 : Shape := ⟨2, ![1, 512]⟩
abbrev S16384x256 : Shape := ⟨2, ![16384, 256]⟩
abbrev S1024x768 : Shape := ⟨2, ![1024, 768]⟩
abbrev S1024x256 : Shape := ⟨2, ![1024, 256]⟩
abbrev S1024 : Shape := ⟨1, ![1024]⟩
abbrev S1024x1 : Shape := ⟨2, ![1024, 1]⟩
abbrev S1x1 : Shape := ⟨2, ![1, 1]⟩
abbrev S16 : Shape := ⟨1, ![16]⟩
abbrev S16x1 : Shape := ⟨2, ![16, 1]⟩
abbrev S1x16 : Shape := ⟨2, ![1, 16]⟩
abbrev S256x16 : Shape := ⟨2, ![256, 16]⟩
abbrev S512x16 : Shape := ⟨2, ![512, 16]⟩
abbrev S512x1 : Shape := ⟨2, ![512, 1]⟩
abbrev S16x768 : Shape := ⟨2, ![16, 768]⟩
abbrev S16x512 : Shape := ⟨2, ![16, 512]⟩
abbrev S1 : Shape := ⟨1, ![1]⟩
abbrev S_ : Shape := ⟨0, ![]⟩

abbrev nBuf : Space → Nat
  | .hbm => 41
  | .vmem => 30
  | .smem => 0
  | _ => 0

abbrev bufTy : (tb : Table) → Fin (tcTables nBuf tb) → BufTy
  | .hbm, ⟨0, _⟩ => ⟨S16384x768, .f32⟩
  | .hbm, ⟨1, _⟩ => ⟨S768, .f32⟩
  | .hbm, ⟨2, _⟩ => ⟨S768, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S16x256, .f32⟩
  | .hbm, ⟨8, _⟩ => ⟨S256x256, .f32⟩
  | .hbm, ⟨9, _⟩ => ⟨S256x768, .f32⟩
  | .hbm, ⟨10, _⟩ => ⟨S256x768, .f32⟩
  | .hbm, ⟨11, _⟩ => ⟨S768x256, .f32⟩
  | .hbm, ⟨12, _⟩ => ⟨S768x256, .f32⟩
  | .hbm, ⟨13, _⟩ => ⟨S768, .f32⟩
  | .hbm, ⟨14, _⟩ => ⟨S768, .f32⟩
  | .hbm, ⟨15, _⟩ => ⟨S512x256, .f32⟩
  | .hbm, ⟨16, _⟩ => ⟨S512, .f32⟩
  | .hbm, ⟨17, _⟩ => ⟨S256x512, .f32⟩
  | .hbm, ⟨18, _⟩ => ⟨S256, .f32⟩
  | .hbm, ⟨19, _⟩ => ⟨S768x256, .f32⟩
  | .hbm, ⟨20, _⟩ => ⟨S768x256, .f32⟩
  | .hbm, ⟨21, _⟩ => ⟨S256x256, .f32⟩
  | .hbm, ⟨22, _⟩ => ⟨S256x768, .f32⟩
  | .hbm, ⟨23, _⟩ => ⟨S256x768, .f32⟩
  | .hbm, ⟨24, _⟩ => ⟨S256x512, .f32⟩
  | .hbm, ⟨25, _⟩ => ⟨S512x256, .f32⟩
  | .hbm, ⟨26, _⟩ => ⟨S1x768, .f32⟩
  | .hbm, ⟨27, _⟩ => ⟨S1x768, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x768, .f32⟩
  | .hbm, ⟨33, _⟩ => ⟨S1x768, .f32⟩
  | .hbm, ⟨34, _⟩ => ⟨S1x512, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S16x256, .f32⟩
  | .hbm, ⟨39, _⟩ => ⟨S1x1, .f32⟩
  | .hbm, ⟨40, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1x768, .f32⟩
  | .local _ .vmem, ⟨3, _⟩ => ⟨S1x768, .f32⟩
  | .local _ .vmem, ⟨4, _⟩ => ⟨S768x256, .f32⟩
  | .local _ .vmem, ⟨5, _⟩ => ⟨S768x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S16384x256, .f32⟩
  | .local _ .vmem, ⟨11, _⟩ => ⟨S16384x256, .f32⟩
  | .local _ .vmem, ⟨12, _⟩ => ⟨S16x256, .f32⟩
  | .local _ .vmem, ⟨13, _⟩ => ⟨S256x256, .f32⟩
  | .local _ .vmem, ⟨14, _⟩ => ⟨S1x256, .f32⟩
  | .local _ .vmem, ⟨15, _⟩ => ⟨S1x256, .f32⟩
  | .local _ .vmem, ⟨16, _⟩ => ⟨S256x768, .f32⟩
  | .local _ .vmem, ⟨17, _⟩ => ⟨S256x768, .f32⟩
  | .local _ .vmem, ⟨18, _⟩ => ⟨S1x768, .f32⟩
  | .local _ .vmem, ⟨19, _⟩ => ⟨S1x768, .f32⟩
  | .local _ .vmem, ⟨20, _⟩ => ⟨S1x256, .f32⟩
  | .local _ .vmem, ⟨21, _⟩ => ⟨S1x256, .f32⟩
  | .local _ .vmem, ⟨22, _⟩ => ⟨S256x512, .f32⟩
  | .local _ .vmem, ⟨23, _⟩ => ⟨S1x512, .f32⟩
  | .local _ .vmem, ⟨24, _⟩ => ⟨S512x256, .f32⟩
  | .local _ .vmem, ⟨25, _⟩ => ⟨S1x256, .f32⟩
  | .local _ .vmem, ⟨26, _⟩ => ⟨S16x256, .f32⟩
  | .local _ .vmem, ⟨27, _⟩ => ⟨S1x1, .f32⟩
  | .local _ .vmem, ⟨28, _⟩ => ⟨S16x256, .f32⟩
  | .local _ .vmem, ⟨29, _⟩ => ⟨S1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_v18_0 : Ref sig .tc := ⟨.hbm, 38, rfl⟩
abbrev main_v18_1 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg14_0 : Ref sig .tc := ⟨.vmem, 24, rfl⟩
abbrev cc1_stg15_0 : Ref sig .tc := ⟨.vmem, 25, rfl⟩
abbrev cc1_stg16_0 : Ref sig .tc := ⟨.vmem, 26, rfl⟩
abbrev cc1_stg17_0 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem14_0 : DmaSem sig := 24
abbrev cc1_sem15_0 : DmaSem sig := 25
abbrev cc1_sem16_0 : DmaSem sig := 26
abbrev cc1_sem17_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![3], ![false]⟩

@[reducible] def k1_t1_loop : Scf.Loop 32 :=
  let c0_i32_17 : BitVec 32 := 0#32
  let c32_i32 : BitVec 32 := 32#32
  let v38 : BitVec 32 := Scalar.addi c0_i32_17 c32_i32
  let c1_i32 : BitVec 32 := 1#32
  ⟨c0_i32_17, v38, c1_i32⟩
def k1_mult1 (k1_t1 : Fin k1_t1_loop.trips) : BitVec 32 :=
  let c0_i32_17 : BitVec 32 := 0#32
  let c1_i32 : BitVec 32 := 1#32
  let arg21 : BitVec 32 := Scf.iv c0_i32_17 c1_i32 k1_t1
  let c512_i32 : BitVec 32 := 512#32
  let v137 : BitVec 32 := Scalar.muli arg21 c512_i32
  v137
def k1_off1 (k1_t1 : Fin k1_t1_loop.trips) : Fin 2 → Nat :=
  let c0_i32_17 : BitVec 32 := 0#32
  let c1_i32 : BitVec 32 := 1#32
  let arg21 : BitVec 32 := Scf.iv c0_i32_17 c1_i32 k1_t1
  let c512_i32 : BitVec 32 := 512#32
  let v137 : BitVec 32 := Scalar.muli arg21 c512_i32
  let v138 : BitVec 32 := v137
  let v139 : Index := Scalar.indexCast v138
  let c0_60 : Index := 0#32
  ![v139.toNat, 0]
def k1_cond2 (i : grid1.Coords) : BitVec 1 :=
  let arg0 : BitVec 32 := BitVec.ofNat 32 (i 0).val
  let c2_i32 : BitVec 32 := 2#32
  let v134 : BitVec 1 := Scalar.cmpi .eq arg0 c2_i32
  let v135 : BitVec 32 := Scalar.extui v134
  let c0_i32_59 : BitVec 32 := 0#32
  let v136 : BitVec 1 := Scalar.cmpi .ne v135 c0_i32_59
  v136

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16384x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16384x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S512x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S16x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

class Facts₀ : Prop where
  transposes_S256x768_S768x256_1_0 : S256x768.Transposes [1, 0] S768x256
  transposes_S256x256_S256x256_1_0 : S256x256.Transposes [1, 0] S256x256
  transposes_S768x256_S256x768_1_0 : S768x256.Transposes [1, 0] S256x768
  transposes_S512x256_S256x512_1_0 : S512x256.Transposes [1, 0] S256x512
  transposes_S256x512_S512x256_1_0 : S256x512.Transposes [1, 0] S512x256
  bcast_S768_S1x768_1 : S768.BroadcastsInDim S1x768 (![1] : Fin 1 → Fin S1x768.rank)
  bcast_S256_S1x256_1 : S256.BroadcastsInDim S1x256 (![1] : Fin 1 → Fin S1x256.rank)
  bcast_S512_S1x512_1 : S512.BroadcastsInDim S1x512 (![1] : Fin 1 → Fin S1x512.rank)
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  broadcasts_S1024x1_S1024x768 : S1024x1.Broadcasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1024x256_S1024x256_0_0 : ∀ a, (![0, 0] : Fin 2 → Nat) a + S1024x256.size a ≤ S1024x256.size a
  h_S1024x256 : 0 < S1024x256.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S16x256_S16 : S16x256.Reduces [1] S16
  shapeCasts_S16_S16x1 : S16.ShapeCasts S16x1
  broadcasts_S16x1_S16x256 : S16x1.Broadcasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S512x256 : 0 < S512x256.numel
  shapeCasts_S512x256_S512x256 : S512x256.ShapeCasts S512x256
  transposes_S16x256_p1_0_S256x16 : S16x256.Transposes [1, 0] S256x16
  reduces_S512x16_S512 : S512x16.Reduces [1] S512
  shapeCasts_S512_S512x1 : S512.ShapeCasts S512x1
  broadcasts_S512x1_S512x16 : S512x1.Broadcasts S512x16
  reduces_S512x16_S16 : S512x16.Reduces [0] S16
  shapeCasts_S16_S1x16 : S16.ShapeCasts S1x16
  transposes_S1x16_p1_0_S16x1 : S1x16.Transposes [1, 0] S16x1
  inb_S256x768_S256x768_0_0 : ∀ a, (![0, 0] : Fin 2 → Nat) a + S256x768.size a ≤ S256x768.size a
  h_S256x768 : 0 < S256x768.numel
  shapeCasts_S256x768_S256x768 : S256x768.ShapeCasts S256x768
  broadcasts_S1x768_S16x768 : S1x768.Broadcasts S16x768
  slices_S16x768_o0_0_S16x256 : S16x768.Slices ![0, 0] S16x256
  slices_S16x768_o0_256_S16x256 : S16x768.Slices ![0, 256] S16x256
  slices_S16x768_o0_512_S16x256 : S16x768.Slices ![0, 512] S16x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S512x256_S512x256_0_0 : ∀ a, (![0, 0] : Fin 2 → Nat) a + S512x256.size a ≤ S512x256.size a
  reduces_S1x16_S1 : S1x16.Reduces [1] S1
  shapeCasts_S1_S1x1 : S1.ShapeCasts S1x1
  shapeCasts_S1x1_S_ : S1x1.ShapeCasts S_
  dot_S1024x768_S768x256_S1024x256_1_0_0_1_n_n_wf : DotDims.WF S1024x768 S768x256 S1024x256 [1] [0] [0] [1] [] []
  dot_S16x256_S256x256_S16x256_1_0_0_1_n_n_wf : DotDims.WF S16x256 S256x256 S16x256 [1] [0] [0] [1] [] []
  dot_S512x256_S256x16_S512x16_1_0_0_1_n_n_wf : DotDims.WF S512x256 S256x16 S512x16 [1] [0] [0] [1] [] []
  dot_S512x16_S512x256_S16x256_0_0_1_1_n_n_wf : DotDims.WF S512x16 S512x256 S16x256 [0] [0] [1] [1] [] []
  dot_S16x256_S256x768_S16x768_1_0_0_1_n_n_wf : DotDims.WF S16x256 S256x768 S16x768 [1] [0] [0] [1] [] []
  dot_S16x256_S256x512_S16x512_1_0_0_1_n_n_wf : DotDims.WF S16x256 S256x512 S16x512 [1] [0] [0] [1] [] []
  dot_S16x512_S512x256_S16x256_1_0_0_1_n_n_wf : DotDims.WF S16x512 S512x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x256.size a ≤ S768x256.size a
  hwx0_4 : ∀ i : grid0.Coords, EltTy.bits .f32 = 32 ∨ (Rect.block (s := S768x256) S768x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S16384x256.size a
  hwx0_5 : ∀ i : grid0.Coords, EltTy.bits .f32 = 32 ∨ (Rect.block (s := S16384x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S16384x256.size a
  hwx0_6 : ∀ i : grid0.Coords, EltTy.bits .f32 = 32 ∨ (Rect.block (s := S16384x256) S1024x256.size (cc0_transform_6 i) (hinb0_6 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x256.size a ≤ S16384x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16384x256.size a ≤ S16384x256.size a
  hwx1_0 : ∀ i : grid1.Coords, EltTy.bits .f32 = 32 ∨ (Rect.block (s := S16384x256) S16384x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .f32 = 32 ∨ (Rect.block (s := S16384x256) S16384x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x256.size a
  hwx1_2 : ∀ i : grid1.Coords, EltTy.bits .f32 = 32 ∨ (Rect.block (s := S16x256) S16x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x768.size a ≤ S256x768.size a
  hwx1_6 : ∀ i : grid1.Coords, EltTy.bits .f32 = 32 ∨ (Rect.block (s := S256x768) S256x768.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x768.size a ≤ S256x768.size a
  hwx1_7 : ∀ i : grid1.Coords, EltTy.bits .f32 = 32 ∨ (Rect.block (s := S256x768) S256x768.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x768.size a ≤ S1x768.size a
  hwx1_8 : ∀ i : grid1.Coords, EltTy.bits .f32 = 32 ∨ (Rect.block (s := S1x768) S1x768.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x768.size a ≤ S1x768.size a
  hwx1_9 : ∀ i : grid1.Coords, EltTy.bits .f32 = 32 ∨ (Rect.block (s := S1x768) S1x768.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256x512.size a ≤ S256x512.size a
  hwx1_12 : ∀ i : grid1.Coords, EltTy.bits .f32 = 32 ∨ (Rect.block (s := S256x512) S256x512.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x512.size a ≤ S1x512.size a
  hwx1_13 : ∀ i : grid1.Coords, EltTy.bits .f32 = 32 ∨ (Rect.block (s := S1x512) S1x512.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S512x256.size a ≤ S512x256.size a
  hwx1_14 : ∀ i : grid1.Coords, EltTy.bits .f32 = 32 ∨ (Rect.block (s := S512x256) S512x256.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x256.size a ≤ S1x256.size a
  hwx1_15 : ∀ i : grid1.Coords, EltTy.bits .f32 = 32 ∨ (Rect.block (s := S1x256) S1x256.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S16x256.size a ≤ S16x256.size a
  hwx1_16 : ∀ i : grid1.Coords, EltTy.bits .f32 = 32 ∨ (Rect.block (s := S16x256) S16x256.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x1.size a ≤ S1x1.size a
  hwx1_17 : ∀ i : grid1.Coords, EltTy.bits .f32 = 32 ∨ (Rect.block (s := S1x1) S1x1.size (cc1_transform_17 i) (hinb1_17 i)).WholeWords (EltTy.packing .f32)

variable [Facts₀]

def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S512x256_S16x256_0_0_1_1_n_n : DotDims S512x16 S512x256 S16x256 where
  lhsContracting := [0]
  rhsContracting := [0]
  lhsNonContracting := [1]
  rhsNonContracting := [1]
  lhsBatch := []
  rhsBatch := []
  wf := dot_S512x16_S512x256_S16x256_0_0_1_1_n_n_wf
def dot_S16x256_S256x768_S16x768_1_0_0_1_n_n : DotDims S16x256 S256x768 S16x768 where
  lhsContracting := [1]
  rhsContracting := [0]
  lhsNonContracting := [0]
  rhsNonContracting := [1]
  lhsBatch := []
  rhsBatch := []
  wf := dot_S16x256_S256x768_S16x768_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17_0) S16384x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S256x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S256x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x768.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S1x768.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v12) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v5) S256x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v15) S1x512.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v6) S512x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v16) S1x256.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v18_0) S16x256.size cc1_transform_16 reads1_16 true true 1 stage1_16 sem1_16
    hrank1 hreads1_16 hinb1_16 nbuf1_16 (Memref.isWhole_whole _) hwx1_16 hstage1_16

abbrev win1_17 : Pipeline.Window sig grid1 :=
  Pipeline.Window.ofSpec (Memref.whole main_v18_1) S1x1.size cc1_transform_17 reads1_17 true true 1 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev idle1 : Fin 18 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k1_cond2 i == 1#1) | 17 => fun i => !(k1_cond2 i == 1#1) | ⟨_ + 18, h⟩ => absurd h (Nat.not_lt.2 (Nat.le_add_left _ _))

class Facts : Prop extends Facts₀ where

variable [Facts]
-- ==== ReferenceIdeal.lean ====
abbrev S16384x768 : Shape := ⟨2, ![16384, 768]⟩
abbrev S768 : Shape := ⟨1, ![768]⟩
abbrev S256 : Shape := ⟨1, ![256]⟩
abbrev S16x256 : Shape := ⟨2, ![16, 256]⟩
abbrev S256x256 : Shape := ⟨2, ![256, 256]⟩
abbrev S256x768 : Shape := ⟨2, ![256, 768]⟩
abbrev S768x256 : Shape := ⟨2, ![768, 256]⟩
abbrev S512x256 : Shape := ⟨2, ![512, 256]⟩
abbrev S512 : Shape := ⟨1, ![512]⟩
abbrev S256x512 : Shape := ⟨2, ![256, 512]⟩
abbrev S_ : Shape := ⟨0, ![]⟩
abbrev S16384 : Shape := ⟨1, ![16384]⟩
abbrev S16384x1 : Shape := ⟨2, ![16384, 1]⟩
abbrev S1x768 : Shape := ⟨2, ![1, 768]⟩
abbrev S16384x256 : Shape := ⟨2, ![16384, 256]⟩
abbrev S16 : Shape := ⟨1, ![16]⟩
abbrev S16x1 : Shape := ⟨2, ![16, 1]⟩
abbrev S1x256 : Shape := ⟨2, ![1, 256]⟩
abbrev S256x16 : Shape := ⟨2, ![256, 16]⟩
abbrev S16384x16 : Shape := ⟨2, ![16384, 16]⟩
abbrev S1x16 : Shape := ⟨2, ![1, 16]⟩
abbrev S16x16384 : Shape := ⟨2, ![16, 16384]⟩
abbrev S16x768 : Shape := ⟨2, ![16, 768]⟩
abbrev S16x512 : Shape := ⟨2, ![16, 512]⟩
abbrev S1x512 : Shape := ⟨2, ![1, 512]⟩
abbrev S1 : Shape := ⟨1, ![1]⟩
abbrev S3 : Shape := ⟨1, ![3]⟩

abbrev nBuf : Space → Nat
  | .hbm => 531
  | .vmem => 0
  | .smem => 0
  | _ => 0

abbrev hbmTy0_0 (i : Nat) : BufTy := match i % 128 with
  | 0 => ⟨S16384x768, .f32⟩
  | 1 => ⟨S768, .f32⟩
  | 2 => ⟨S768, .f32⟩
  | 3 => ⟨S256, .f32⟩
  | 4 => ⟨S256, .f32⟩
  | 5 => ⟨S256, .f32⟩
  | 6 => ⟨S256, .f32⟩
  | 7 => ⟨S16x256, .f32⟩
  | 8 => ⟨S256x256, .f32⟩
  | 9 => ⟨S256x768, .f32⟩
  | 10 => ⟨S256x768, .f32⟩
  | 11 => ⟨S768x256, .f32⟩
  | 12 => ⟨S768x256, .f32⟩
  | 13 => ⟨S768, .f32⟩
  | 14 => ⟨S768, .f32⟩
  | 15 => ⟨S512x256, .f32⟩
  | 16 => ⟨S512, .f32⟩
  | 17 => ⟨S256x512, .f32⟩
  | 18 => ⟨S256, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x768, .f32⟩
  | 26 => ⟨S16384x768, .f32⟩
  | 27 => ⟨S16384x768, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x768, .f32⟩
  | 35 => ⟨S16384x768, .f32⟩
  | 36 => ⟨S_, .f32⟩
  | 37 => ⟨S16384x1, .f32⟩
  | 38 => ⟨S16384x1, .f32⟩
  | 39 => ⟨S16384x1, .f32⟩
  | 40 => ⟨S16384x768, .f32⟩
  | 41 => ⟨S16384x768, .f32⟩
  | 42 => ⟨S1x768, .f32⟩
  | 43 => ⟨S16384x768, .f32⟩
  | 44 => ⟨S16384x768, .f32⟩
  | 45 => ⟨S1x768, .f32⟩
  | 46 => ⟨S16384x768, .f32⟩
  | 47 => ⟨S16384x768, .f32⟩
  | 48 => ⟨S768x256, .f32⟩
  | 49 => ⟨S16384x256, .f32⟩
  | 50 => ⟨S768x256, .f32⟩
  | 51 => ⟨S16384x256, .f32⟩
  | 52 => ⟨S_, .f32⟩
  | 53 => ⟨S16, .f32⟩
  | 54 => ⟨S16x1, .f32⟩
  | 55 => ⟨S_, .f32⟩
  | 56 => ⟨S16x1, .f32⟩
  | 57 => ⟨S16x1, .f32⟩
  | 58 => ⟨S16x256, .f32⟩
  | 59 => ⟨S16x256, .f32⟩
  | 60 => ⟨S16x256, .f32⟩
  | 61 => ⟨S_, .f32⟩
  | 62 => ⟨S16, .f32⟩
  | 63 => ⟨S16x1, .f32⟩
  | 64 => ⟨S_, .f32⟩
  | 65 => ⟨S16x1, .f32⟩
  | 66 => ⟨S16x1, .f32⟩
  | 67 => ⟨S16x256, .f32⟩
  | 68 => ⟨S16x256, .f32⟩
  | 69 => ⟨S_, .f32⟩
  | 70 => ⟨S16x1, .f32⟩
  | 71 => ⟨S16x1, .f32⟩
  | 72 => ⟨S16x1, .f32⟩
  | 73 => ⟨S16x256, .f32⟩
  | 74 => ⟨S16x256, .f32⟩
  | 75 => ⟨S1x256, .f32⟩
  | 76 => ⟨S16x256, .f32⟩
  | 77 => ⟨S16x256, .f32⟩
  | 78 => ⟨S1x256, .f32⟩
  | 79 => ⟨S16x256, .f32⟩
  | 80 => ⟨S16x256, .f32⟩
  | 81 => ⟨S256x256, .f32⟩
  | 82 => ⟨S16x256, .f32⟩
  | 83 => ⟨S_, .f32⟩
  | 84 => ⟨S16x256, .f32⟩
  | 85 => ⟨S16x256, .f32⟩
  | 86 => ⟨S256x16, .f32⟩
  | 87 => ⟨S16384x16, .f32⟩
  | 88 => ⟨S_, .f32⟩
  | 89 => ⟨S16384, .f32⟩
  | 90 => ⟨S_, .f32⟩
  | 91 => ⟨S16384, .f32⟩
  | 92 => ⟨S16384, .f32⟩
  | 93 => ⟨S16384x1, .f32⟩
  | 94 => ⟨S16384x16, .f32⟩
  | 95 => ⟨S16384x16, .f32⟩
  | 96 => ⟨S16384x16, .f32⟩
  | 97 => ⟨S_, .f32⟩
  | 98 => ⟨S16384, .f32⟩
  | 99 => ⟨S16384x1, .f32⟩
  | 100 => ⟨S16384x16, .f32⟩
  | 101 => ⟨S16384x16, .f32⟩
  | 102 => ⟨S_, .f32⟩
  | 103 => ⟨S16384x16, .f32⟩
  | 104 => ⟨S16384x16, .f32⟩
  | 105 => ⟨S_, .f32⟩
  | 106 => ⟨S16, .f32⟩
  | 107 => ⟨S1x16, .f32⟩
  | 108 => ⟨S16384x16, .f32⟩
  | 109 => ⟨S16384x16, .f32⟩
  | 110 => ⟨S_, .f32⟩
  | 111 => ⟨S_, .f32⟩
  | 112 => ⟨S_, .f32⟩
  | 113 => ⟨S_, .f32⟩
  | 114 => ⟨S16384x16, .f32⟩
  | 115 => ⟨S16384x16, .f32⟩
  | 116 => ⟨S16384x16, .f32⟩
  | 117 => ⟨S_, .f32⟩
  | 118 => ⟨S_, .f32⟩
  | 119 => ⟨S_, .f32⟩
  | 120 => ⟨S_, .f32⟩
  | 121 => ⟨S16x16384, .f32⟩
  | 122 => ⟨S16x256, .f32⟩
  | 123 => ⟨S256x768, .f32⟩
  | 124 => ⟨S16x768, .f32⟩
  | 125 => ⟨S1x768, .f32⟩
  | 126 => ⟨S16x768, .f32⟩
  | 127 => ⟨S16x768, .f32⟩
  | _ => ⟨S16384x768, .f32⟩

abbrev hbmTy0_1 (i : Nat) : BufTy := match i % 128 with
  | 0 => ⟨S256x768, .f32⟩
  | 1 => ⟨S16x768, .f32⟩
  | 2 => ⟨S1x768, .f32⟩
  | 3 => ⟨S16x768, .f32⟩
  | 4 => ⟨S16x768, .f32⟩
  | 5 => ⟨S16x256, .f32⟩
  | 6 => ⟨S16x256, .f32⟩
  | 7 => ⟨S16x256, .f32⟩
  | 8 => ⟨S16x256, .f32⟩
  | 9 => ⟨S16x256, .f32⟩
  | 10 => ⟨S16x256, .f32⟩
  | 11 => ⟨S16x256, .f32⟩
  | 12 => ⟨S16x256, .f32⟩
  | 13 => ⟨S16x256, .f32⟩
  | 14 => ⟨S_, .f32⟩
  | 15 => ⟨S16x256, .f32⟩
  | 16 => ⟨S16x256, .f32⟩
  | 17 => ⟨S_, .f32⟩
  | 18 => ⟨S16x256, .f32⟩
  | 19 => ⟨S16x256, .f32⟩
  | 20 => ⟨S16x256, .f32⟩
  | 21 => ⟨S16x256, .f32⟩
  | 22 => ⟨S16x256, .f32⟩
  | 23 => ⟨S_, .f32⟩
  | 24 => ⟨S16x256, .f32⟩
  | 25 => ⟨S16x256, .f32⟩
  | 26 => ⟨S_, .f32⟩
  | 27 => ⟨S16x256, .f32⟩
  | 28 => ⟨S16x256, .f32⟩
  | 29 => ⟨S16x256, .f32⟩
  | 30 => ⟨S16x256, .f32⟩
  | 31 => ⟨S16x256, .f32⟩
  | 32 => ⟨S_, .f32⟩
  | 33 => ⟨S16x256, .f32⟩
  | 34 => ⟨S16x256, .f32⟩
  | 35 => ⟨S16x256, .f32⟩
  | 36 => ⟨S16x256, .f32⟩
  | 37 => ⟨S16x256, .f32⟩
  | 38 => ⟨S_, .f32⟩
  | 39 => ⟨S16, .f32⟩
  | 40 => ⟨S16x1, .f32⟩
  | 41 => ⟨S_, .f32⟩
  | 42 => ⟨S16x1, .f32⟩
  | 43 => ⟨S16x1, .f32⟩
  | 44 => ⟨S16x256, .f32⟩
  | 45 => ⟨S16x256, .f32⟩
  | 46 => ⟨S16x256, .f32⟩
  | 47 => ⟨S_, .f32⟩
  | 48 => ⟨S16, .f32⟩
  | 49 => ⟨S16x1, .f32⟩
  | 50 => ⟨S_, .f32⟩
  | 51 => ⟨S16x1, .f32⟩
  | 52 => ⟨S16x1, .f32⟩
  | 53 => ⟨S16x256, .f32⟩
  | 54 => ⟨S16x256, .f32⟩
  | 55 => ⟨S_, .f32⟩
  | 56 => ⟨S16x1, .f32⟩
  | 57 => ⟨S16x1, .f32⟩
  | 58 => ⟨S16x1, .f32⟩
  | 59 => ⟨S16x256, .f32⟩
  | 60 => ⟨S16x256, .f32⟩
  | 61 => ⟨S1x256, .f32⟩
  | 62 => ⟨S16x256, .f32⟩
  | 63 => ⟨S16x256, .f32⟩
  | 64 => ⟨S1x256, .f32⟩
  | 65 => ⟨S16x256, .f32⟩
  | 66 => ⟨S16x256, .f32⟩
  | 67 => ⟨S256x512, .f32⟩
  | 68 => ⟨S16x512, .f32⟩
  | 69 => ⟨S1x512, .f32⟩
  | 70 => ⟨S16x512, .f32⟩
  | 71 => ⟨S16x512, .f32⟩
  | 72 => ⟨S_, .f32⟩
  | 73 => ⟨S16x512, .f32⟩
  | 74 => ⟨S16x512, .f32⟩
  | 75 => ⟨S512x256, .f32⟩
  | 76 => ⟨S16x256, .f32⟩
  | 77 => ⟨S1x256, .f32⟩
  | 78 => ⟨S16x256, .f32⟩
  | 79 => ⟨S16x256, .f32⟩
  | 80 => ⟨S16x256, .f32⟩
  | 81 => ⟨S_, .f32⟩
  | 82 => ⟨S16, .f32⟩
  | 83 => ⟨S16x1, .f32⟩
  | 84 => ⟨S_, .f32⟩
  | 85 => ⟨S16x1, .f32⟩
  | 86 => ⟨S16x1, .f32⟩
  | 87 => ⟨S16x256, .f32⟩
  | 88 => ⟨S16x256, .f32⟩
  | 89 => ⟨S16x256, .f32⟩
  | 90 => ⟨S_, .f32⟩
  | 91 => ⟨S16, .f32⟩
  | 92 => ⟨S16x1, .f32⟩
  | 93 => ⟨S_, .f32⟩
  | 94 => ⟨S16x1, .f32⟩
  | 95 => ⟨S16x1, .f32⟩
  | 96 => ⟨S16x256, .f32⟩
  | 97 => ⟨S16x256, .f32⟩
  | 98 => ⟨S_, .f32⟩
  | 99 => ⟨S16x1, .f32⟩
  | 100 => ⟨S16x1, .f32⟩
  | 101 => ⟨S16x1, .f32⟩
  | 102 => ⟨S16x256, .f32⟩
  | 103 => ⟨S16x256, .f32⟩
  | 104 => ⟨S1x256, .f32⟩
  | 105 => ⟨S16x256, .f32⟩
  | 106 => ⟨S16x256, .f32⟩
  | 107 => ⟨S1x256, .f32⟩
  | 108 => ⟨S16x256, .f32⟩
  | 109 => ⟨S16x256, .f32⟩
  | 110 => ⟨S256x256, .f32⟩
  | 111 => ⟨S16x256, .f32⟩
  | 112 => ⟨S_, .f32⟩
  | 113 => ⟨S16x256, .f32⟩
  | 114 => ⟨S16x256, .f32⟩
  | 115 => ⟨S256x16, .f32⟩
  | 116 => ⟨S16384x16, .f32⟩
  | 117 => ⟨S_, .f32⟩
  | 118 => ⟨S16384, .f32⟩
  | 119 => ⟨S_, .f32⟩
  | 120 => ⟨S16384, .f32⟩
  | 121 => ⟨S16384, .f32⟩
  | 122 => ⟨S16384x1, .f32⟩
  | 123 => ⟨S16384x16, .f32⟩
  | 124 => ⟨S16384x16, .f32⟩
  | 125 => ⟨S16384x16, .f32⟩
  | 126 => ⟨S_, .f32⟩
  | 127 => ⟨S16384, .f32⟩
  | _ => ⟨S16384x768, .f32⟩

abbrev hbmTy0_2 (i : Nat) : BufTy := match i % 128 with
  | 0 => ⟨S16384x1, .f32⟩
  | 1 => ⟨S16384x16, .f32⟩
  | 2 => ⟨S16384x16, .f32⟩
  | 3 => ⟨S_, .f32⟩
  | 4 => ⟨S16384x16, .f32⟩
  | 5 => ⟨S16384x16, .f32⟩
  | 6 => ⟨S_, .f32⟩
  | 7 => ⟨S16, .f32⟩
  | 8 => ⟨S1x16, .f32⟩
  | 9 => ⟨S16384x16, .f32⟩
  | 10 => ⟨S16384x16, .f32⟩
  | 11 => ⟨S_, .f32⟩
  | 12 => ⟨S_, .f32⟩
  | 13 => ⟨S_, .f32⟩
  | 14 => ⟨S_, .f32⟩
  | 15 => ⟨S16384x16, .f32⟩
  | 16 => ⟨S16384x16, .f32⟩
  | 17 => ⟨S16384x16, .f32⟩
  | 18 => ⟨S_, .f32⟩
  | 19 => ⟨S_, .f32⟩
  | 20 => ⟨S_, .f32⟩
  | 21 => ⟨S_, .f32⟩
  | 22 => ⟨S16x16384, .f32⟩
  | 23 => ⟨S16x256, .f32⟩
  | 24 => ⟨S256x768, .f32⟩
  | 25 => ⟨S16x768, .f32⟩
  | 26 => ⟨S1x768, .f32⟩
  | 27 => ⟨S16x768, .f32⟩
  | 28 => ⟨S16x768, .f32⟩
  | 29 => ⟨S256x768, .f32⟩
  | 30 => ⟨S16x768, .f32⟩
  | 31 => ⟨S1x768, .f32⟩
  | 32 => ⟨S16x768, .f32⟩
  | 33 => ⟨S16x768, .f32⟩
  | 34 => ⟨S16x256, .f32⟩
  | 35 => ⟨S16x256, .f32⟩
  | 36 => ⟨S16x256, .f32⟩
  | 37 => ⟨S16x256, .f32⟩
  | 38 => ⟨S16x256, .f32⟩
  | 39 => ⟨S16x256, .f32⟩
  | 40 => ⟨S16x256, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S_, .f32⟩
  | 47 => ⟨S16x256, .f32⟩
  | 48 => ⟨S16x256, .f32⟩
  | 49 => ⟨S16x256, .f32⟩
  | 50 => ⟨S16x256, .f32⟩
  | 51 => ⟨S16x256, .f32⟩
  | 52 => ⟨S_, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S16x256, .f32⟩
  | 60 => ⟨S16x256, .f32⟩
  | 61 => ⟨S_, .f32⟩
  | 62 => ⟨S16x256, .f32⟩
  | 63 => ⟨S16x256, .f32⟩
  | 64 => ⟨S16x256, .f32⟩
  | 65 => ⟨S16x256, .f32⟩
  | 66 => ⟨S16x256, .f32⟩
  | 67 => ⟨S_, .f32⟩
  | 68 => ⟨S16, .f32⟩
  | 69 => ⟨S16x1, .f32⟩
  | 70 => ⟨S_, .f32⟩
  | 71 => ⟨S16x1, .f32⟩
  | 72 => ⟨S16x1, .f32⟩
  | 73 => ⟨S16x256, .f32⟩
  | 74 => ⟨S16x256, .f32⟩
  | 75 => ⟨S16x256, .f32⟩
  | 76 => ⟨S_, .f32⟩
  | 77 => ⟨S16, .f32⟩
  | 78 => ⟨S16x1, .f32⟩
  | 79 => ⟨S_, .f32⟩
  | 80 => ⟨S16x1, .f32⟩
  | 81 => ⟨S16x1, .f32⟩
  | 82 => ⟨S16x256, .f32⟩
  | 83 => ⟨S16x256, .f32⟩
  | 84 => ⟨S_, .f32⟩
  | 85 => ⟨S16x1, .f32⟩
  | 86 => ⟨S16x1, .f32⟩
  | 87 => ⟨S16x1, .f32⟩
  | 88 => ⟨S16x256, .f32⟩
  | 89 => ⟨S16x256, .f32⟩
  | 90 => ⟨S1x256, .f32⟩
  | 91 => ⟨S16x256, .f32⟩
  | 92 => ⟨S16x256, .f32⟩
  | 93 => ⟨S1x256, .f32⟩
  | 94 => ⟨S16x256, .f32⟩
  | 95 => ⟨S16x256, .f32⟩
  | 96 => ⟨S256x512, .f32⟩
  | 97 => ⟨S16x512, .f32⟩
  | 98 => ⟨S1x512, .f32⟩
  | 99 => ⟨S16x512, .f32⟩
  | 100 => ⟨S16x512, .f32⟩
  | 101 => ⟨S_, .f32⟩
  | 102 => ⟨S16x512, .f32⟩
  | 103 => ⟨S16x512, .f32⟩
  | 104 => ⟨S512x256, .f32⟩
  | 105 => ⟨S16x256, .f32⟩
  | 106 => ⟨S1x256, .f32⟩
  | 107 => ⟨S16x256, .f32⟩
  | 108 => ⟨S16x256, .f32⟩
  | 109 => ⟨S16x256, .f32⟩
  | 110 => ⟨S_, .f32⟩
  | 111 => ⟨S16, .f32⟩
  | 112 => ⟨S16x1, .f32⟩
  | 113 => ⟨S_, .f32⟩
  | 114 => ⟨S16x1, .f32⟩
  | 115 => ⟨S16x1, .f32⟩
  | 116 => ⟨S16x256, .f32⟩
  | 117 => ⟨S16x256, .f32⟩
  | 118 => ⟨S16x256, .f32⟩
  | 119 => ⟨S_, .f32⟩
  | 120 => ⟨S16, .f32⟩
  | 121 => ⟨S16x1, .f32⟩
  | 122 => ⟨S_, .f32⟩
  | 123 => ⟨S16x1, .f32⟩
  | 124 => ⟨S16x1, .f32⟩
  | 125 => ⟨S16x256, .f32⟩
  | 126 => ⟨S16x256, .f32⟩
  | 127 => ⟨S_, .f32⟩
  | _ => ⟨S16384x768, .f32⟩

abbrev hbmTy0_3 (i : Nat) : BufTy := match i % 128 with
  | 0 => ⟨S16x1, .f32⟩
  | 1 => ⟨S16x1, .f32⟩
  | 2 => ⟨S16x1, .f32⟩
  | 3 => ⟨S16x256, .f32⟩
  | 4 => ⟨S16x256, .f32⟩
  | 5 => ⟨S1x256, .f32⟩
  | 6 => ⟨S16x256, .f32⟩
  | 7 => ⟨S16x256, .f32⟩
  | 8 => ⟨S1x256, .f32⟩
  | 9 => ⟨S16x256, .f32⟩
  | 10 => ⟨S16x256, .f32⟩
  | 11 => ⟨S256x256, .f32⟩
  | 12 => ⟨S16x256, .f32⟩
  | 13 => ⟨S_, .f32⟩
  | 14 => ⟨S16x256, .f32⟩
  | 15 => ⟨S16x256, .f32⟩
  | 16 => ⟨S256x16, .f32⟩
  | 17 => ⟨S16384x16, .f32⟩
  | 18 => ⟨S_, .f32⟩
  | 19 => ⟨S16384, .f32⟩
  | 20 => ⟨S_, .f32⟩
  | 21 => ⟨S16384, .f32⟩
  | 22 => ⟨S16384, .f32⟩
  | 23 => ⟨S16384x1, .f32⟩
  | 24 => ⟨S16384x16, .f32⟩
  | 25 => ⟨S16384x16, .f32⟩
  | 26 => ⟨S16384x16, .f32⟩
  | 27 => ⟨S_, .f32⟩
  | 28 => ⟨S16384, .f32⟩
  | 29 => ⟨S16384x1, .f32⟩
  | 30 => ⟨S16384x16, .f32⟩
  | 31 => ⟨S16384x16, .f32⟩
  | 32 => ⟨S_, .f32⟩
  | 33 => ⟨S16384x16, .f32⟩
  | 34 => ⟨S16384x16, .f32⟩
  | 35 => ⟨S_, .f32⟩
  | 36 => ⟨S16, .f32⟩
  | 37 => ⟨S1x16, .f32⟩
  | 38 => ⟨S16384x16, .f32⟩
  | 39 => ⟨S16384x16, .f32⟩
  | 40 => ⟨S_, .f32⟩
  | 41 => ⟨S_, .f32⟩
  | 42 => ⟨S_, .f32⟩
  | 43 => ⟨S_, .f32⟩
  | 44 => ⟨S16384x16, .f32⟩
  | 45 => ⟨S16384x16, .f32⟩
  | 46 => ⟨S16384x16, .f32⟩
  | 47 => ⟨S_, .f32⟩
  | 48 => ⟨S_, .f32⟩
  | 49 => ⟨S_, .f32⟩
  | 50 => ⟨S_, .f32⟩
  | 51 => ⟨S16x16384, .f32⟩
  | 52 => ⟨S16x256, .f32⟩
  | 53 => ⟨S256x768, .f32⟩
  | 54 => ⟨S16x768, .f32⟩
  | 55 => ⟨S1x768, .f32⟩
  | 56 => ⟨S16x768, .f32⟩
  | 57 => ⟨S16x768, .f32⟩
  | 58 => ⟨S256x768, .f32⟩
  | 59 => ⟨S16x768, .f32⟩
  | 60 => ⟨S1x768, .f32⟩
  | 61 => ⟨S16x768, .f32⟩
  | 62 => ⟨S16x768, .f32⟩
  | 63 => ⟨S16x256, .f32⟩
  | 64 => ⟨S16x256, .f32⟩
  | 65 => ⟨S16x256, .f32⟩
  | 66 => ⟨S16x256, .f32⟩
  | 67 => ⟨S16x256, .f32⟩
  | 68 => ⟨S16x256, .f32⟩
  | 69 => ⟨S16x256, .f32⟩
  | 70 => ⟨S16x256, .f32⟩
  | 71 => ⟨S16x256, .f32⟩
  | 72 => ⟨S_, .f32⟩
  | 73 => ⟨S16x256, .f32⟩
  | 74 => ⟨S16x256, .f32⟩
  | 75 => ⟨S_, .f32⟩
  | 76 => ⟨S16x256, .f32⟩
  | 77 => ⟨S16x256, .f32⟩
  | 78 => ⟨S16x256, .f32⟩
  | 79 => ⟨S16x256, .f32⟩
  | 80 => ⟨S16x256, .f32⟩
  | 81 => ⟨S_, .f32⟩
  | 82 => ⟨S16x256, .f32⟩
  | 83 => ⟨S16x256, .f32⟩
  | 84 => ⟨S_, .f32⟩
  | 85 => ⟨S16x256, .f32⟩
  | 86 => ⟨S16x256, .f32⟩
  | 87 => ⟨S16x256, .f32⟩
  | 88 => ⟨S16x256, .f32⟩
  | 89 => ⟨S16x256, .f32⟩
  | 90 => ⟨S_, .f32⟩
  | 91 => ⟨S16x256, .f32⟩
  | 92 => ⟨S16x256, .f32⟩
  | 93 => ⟨S16x256, .f32⟩
  | 94 => ⟨S16x256, .f32⟩
  | 95 => ⟨S16x256, .f32⟩
  | 96 => ⟨S_, .f32⟩
  | 97 => ⟨S16, .f32⟩
  | 98 => ⟨S16x1, .f32⟩
  | 99 => ⟨S_, .f32⟩
  | 100 => ⟨S16x1, .f32⟩
  | 101 => ⟨S16x1, .f32⟩
  | 102 => ⟨S16x256, .f32⟩
  | 103 => ⟨S16x256, .f32⟩
  | 104 => ⟨S16x256, .f32⟩
  | 105 => ⟨S_, .f32⟩
  | 106 => ⟨S16, .f32⟩
  | 107 => ⟨S16x1, .f32⟩
  | 108 => ⟨S_, .f32⟩
  | 109 => ⟨S16x1, .f32⟩
  | 110 => ⟨S16x1, .f32⟩
  | 111 => ⟨S16x256, .f32⟩
  | 112 => ⟨S16x256, .f32⟩
  | 113 => ⟨S_, .f32⟩
  | 114 => ⟨S16x1, .f32⟩
  | 115 => ⟨S16x1, .f32⟩
  | 116 => ⟨S16x1, .f32⟩
  | 117 => ⟨S16x256, .f32⟩
  | 118 => ⟨S16x256, .f32⟩
  | 119 => ⟨S1x256, .f32⟩
  | 120 => ⟨S16x256, .f32⟩
  | 121 => ⟨S16x256, .f32⟩
  | 122 => ⟨S1x256, .f32⟩
  | 123 => ⟨S16x256, .f32⟩
  | 124 => ⟨S16x256, .f32⟩
  | 125 => ⟨S256x512, .f32⟩
  | 126 => ⟨S16x512, .f32⟩
  | 127 => ⟨S1x512, .f32⟩
  | _ => ⟨S16384x768, .f32⟩

abbrev hbmTy0_4 (i : Nat) : BufTy := match i % 128 with
  | 0 => ⟨S16x512, .f32⟩
  | 1 => ⟨S16x512, .f32⟩
  | 2 => ⟨S_, .f32⟩
  | 3 => ⟨S16x512, .f32⟩
  | 4 => ⟨S16x512, .f32⟩
  | 5 => ⟨S512x256, .f32⟩
  | 6 => ⟨S16x256, .f32⟩
  | 7 => ⟨S1x256, .f32⟩
  | 8 => ⟨S16x256, .f32⟩
  | 9 => ⟨S16x256, .f32⟩
  | 10 => ⟨S16x256, .f32⟩
  | 11 => ⟨S1, .f32⟩
  | 12 => ⟨S1, .f32⟩
  | 13 => ⟨S1, .f32⟩
  | 14 => ⟨S3, .f32⟩
  | 15 => ⟨S_, .f32⟩
  | 16 => ⟨S_, .f32⟩
  | 17 => ⟨S_, .f32⟩
  | 18 => ⟨S_, .f32⟩
  | _ => ⟨S16384x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_cst_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_19 : Ref sig .tc := ⟨.hbm, 142, rfl⟩
abbrev main_v103 : Ref sig .tc := ⟨.hbm, 143, rfl⟩
abbrev main_v104 : Ref sig .tc := ⟨.hbm, 144, rfl⟩
abbrev main_cst_20 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_21 : Ref sig .tc := ⟨.hbm, 151, rfl⟩
abbrev main_v110 : Ref sig .tc := ⟨.hbm, 152, rfl⟩
abbrev main_v111 : Ref sig .tc := ⟨.hbm, 153, rfl⟩
abbrev main_cst_22 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_23 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_24 : Ref sig .tc := ⟨.hbm, 166, rfl⟩
abbrev main_v122 : Ref sig .tc := ⟨.hbm, 167, rfl⟩
abbrev main_v123 : Ref sig .tc := ⟨.hbm, 168, rfl⟩
abbrev main_cst_25 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_26 : Ref sig .tc := ⟨.hbm, 175, rfl⟩
abbrev main_v129 : Ref sig .tc := ⟨.hbm, 176, rfl⟩
abbrev main_v130 : Ref sig .tc := ⟨.hbm, 177, rfl⟩
abbrev main_cst_27 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_28 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_29 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_30 : Ref sig .tc := ⟨.hbm, 209, rfl⟩
abbrev main_v159 : Ref sig .tc := ⟨.hbm, 210, rfl⟩
abbrev main_v160 : Ref sig .tc := ⟨.hbm, 211, rfl⟩
abbrev main_cst_31 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_32 : Ref sig .tc := ⟨.hbm, 218, rfl⟩
abbrev main_v166 : Ref sig .tc := ⟨.hbm, 219, rfl⟩
abbrev main_v167 : Ref sig .tc := ⟨.hbm, 220, rfl⟩
abbrev main_cst_33 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_34 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_35 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_cst_36 : Ref sig .tc := ⟨.hbm, 245, rfl⟩
abbrev main_v189 : Ref sig .tc := ⟨.hbm, 246, rfl⟩
abbrev main_cst_37 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_cst_38 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_cst_39 : Ref sig .tc := ⟨.hbm, 259, rfl⟩
abbrev main_v200 : Ref sig .tc := ⟨.hbm, 260, rfl⟩
abbrev main_v201 : Ref sig .tc := ⟨.hbm, 261, rfl⟩
abbrev main_cst_40 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_41 : Ref sig .tc := ⟨.hbm, 267, rfl⟩
abbrev main_v206 : Ref sig .tc := ⟨.hbm, 268, rfl⟩
abbrev main_cst_42 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_cst_43 : Ref sig .tc := ⟨.hbm, 274, rfl⟩
abbrev main_v211 : Ref sig .tc := ⟨.hbm, 275, rfl⟩
abbrev main_cst_44 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_45 : Ref sig .tc := ⟨.hbm, 299, rfl⟩
abbrev main_v234 : Ref sig .tc := ⟨.hbm, 300, rfl⟩
abbrev main_v235 : Ref sig .tc := ⟨.hbm, 301, rfl⟩
abbrev main_cst_46 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_47 : Ref sig .tc := ⟨.hbm, 308, rfl⟩
abbrev main_v241 : Ref sig .tc := ⟨.hbm, 309, rfl⟩
abbrev main_v242 : Ref sig .tc := ⟨.hbm, 310, rfl⟩
abbrev main_cst_48 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_cst_49 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_cst_50 : Ref sig .tc := ⟨.hbm, 323, rfl⟩
abbrev main_v253 : Ref sig .tc := ⟨.hbm, 324, rfl⟩
abbrev main_v254 : Ref sig .tc := ⟨.hbm, 325, rfl⟩
abbrev main_cst_51 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_cst_52 : Ref sig .tc := ⟨.hbm, 332, rfl⟩
abbrev main_v260 : Ref sig .tc := ⟨.hbm, 333, rfl⟩
abbrev main_v261 : Ref sig .tc := ⟨.hbm, 334, rfl⟩
abbrev main_cst_53 : Ref sig .tc := ⟨.hbm, 335, rfl⟩
abbrev main_v262 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_cst_54 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_cst_55 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_cst_56 : Ref sig .tc := ⟨.hbm, 366, rfl⟩
abbrev main_v290 : Ref sig .tc := ⟨.hbm, 367, rfl⟩
abbrev main_v291 : Ref sig .tc := ⟨.hbm, 368, rfl⟩
abbrev main_cst_57 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_cst_58 : Ref sig .tc := ⟨.hbm, 375, rfl⟩
abbrev main_v297 : Ref sig .tc := ⟨.hbm, 376, rfl⟩
abbrev main_v298 : Ref sig .tc := ⟨.hbm, 377, rfl⟩
abbrev main_cst_59 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_cst_60 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_cst_61 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_cst_62 : Ref sig .tc := ⟨.hbm, 402, rfl⟩
abbrev main_v320 : Ref sig .tc := ⟨.hbm, 403, rfl⟩
abbrev main_cst_63 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_cst_64 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_cst_65 : Ref sig .tc := ⟨.hbm, 416, rfl⟩
abbrev main_v331 : Ref sig .tc := ⟨.hbm, 417, rfl⟩
abbrev main_v332 : Ref sig .tc := ⟨.hbm, 418, rfl⟩
abbrev main_cst_66 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_cst_67 : Ref sig .tc := ⟨.hbm, 424, rfl⟩
abbrev main_v337 : Ref sig .tc := ⟨.hbm, 425, rfl⟩
abbrev main_cst_68 : Ref sig .tc := ⟨.hbm, 426, rfl⟩
abbrev main_v338 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_cst_69 : Ref sig .tc := ⟨.hbm, 431, rfl⟩
abbrev main_v342 : Ref sig .tc := ⟨.hbm, 432, rfl⟩
abbrev main_cst_70 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_v349 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_cst_71 : Ref sig .tc := ⟨.hbm, 456, rfl⟩
abbrev main_v365 : Ref sig .tc := ⟨.hbm, 457, rfl⟩
abbrev main_v366 : Ref sig .tc := ⟨.hbm, 458, rfl⟩
abbrev main_cst_72 : Ref sig .tc := ⟨.hbm, 459, rfl⟩
abbrev main_v367 : Ref sig .tc := ⟨.hbm, 460, rfl⟩
abbrev main_v368 : Ref sig .tc := ⟨.hbm, 461, rfl⟩
abbrev main_v369 : Ref sig .tc := ⟨.hbm, 462, rfl⟩
abbrev main_v370 : Ref sig .tc := ⟨.hbm, 463, rfl⟩
abbrev main_v371 : Ref sig .tc := ⟨.hbm, 464, rfl⟩
abbrev main_cst_73 : Ref sig .tc := ⟨.hbm, 465, rfl⟩
abbrev main_v372 : Ref sig .tc := ⟨.hbm, 466, rfl⟩
abbrev main_v373 : Ref sig .tc := ⟨.hbm, 467, rfl⟩
abbrev main_cst_74 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_cst_75 : Ref sig .tc := ⟨.hbm, 474, rfl⟩
abbrev main_v379 : Ref sig .tc := ⟨.hbm, 475, rfl⟩
abbrev main_v380 : Ref sig .tc := ⟨.hbm, 476, rfl⟩
abbrev main_v381 : Ref sig .tc := ⟨.hbm, 477, rfl⟩
abbrev main_v382 : Ref sig .tc := ⟨.hbm, 478, rfl⟩
abbrev main_v383 : Ref sig .tc := ⟨.hbm, 479, rfl⟩
abbrev main_cst_76 : Ref sig .tc := ⟨.hbm, 480, rfl⟩
abbrev main_v384 : Ref sig .tc := ⟨.hbm, 481, rfl⟩
abbrev main_v385 : Ref sig .tc := ⟨.hbm, 482, rfl⟩
abbrev main_cst_77 : Ref sig .tc := ⟨.hbm, 483, rfl⟩
abbrev main_v386 : Ref sig .tc := ⟨.hbm, 484, rfl⟩
abbrev main_v387 : Ref sig .tc := ⟨.hbm, 485, rfl⟩
abbrev main_v388 : Ref sig .tc := ⟨.hbm, 486, rfl⟩
abbrev main_v389 : Ref sig .tc := ⟨.hbm, 487, rfl⟩
abbrev main_v390 : Ref sig .tc := ⟨.hbm, 488, rfl⟩
abbrev main_cst_78 : Ref sig .tc := ⟨.hbm, 489, rfl⟩
abbrev main_v391 : Ref sig .tc := ⟨.hbm, 490, rfl⟩
abbrev main_v392 : Ref sig .tc := ⟨.hbm, 491, rfl⟩
abbrev main_cst_79 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_cst_80 : Ref sig .tc := ⟨.hbm, 497, rfl⟩
abbrev main_v397 : Ref sig .tc := ⟨.hbm, 498, rfl⟩
abbrev main_v398 : Ref sig .tc := ⟨.hbm, 499, rfl⟩
abbrev main_v399 : Ref sig .tc := ⟨.hbm, 500, rfl⟩
abbrev main_v400 : Ref sig .tc := ⟨.hbm, 501, rfl⟩
abbrev main_v401 : Ref sig .tc := ⟨.hbm, 502, rfl⟩
abbrev main_v402 : Ref sig .tc := ⟨.hbm, 503, rfl⟩
abbrev main_v403 : Ref sig .tc := ⟨.hbm, 504, rfl⟩
abbrev main_v404 : Ref sig .tc := ⟨.hbm, 505, rfl⟩
abbrev main_v405 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩
abbrev main_cst_81 : Ref sig .tc := ⟨.hbm, 514, rfl⟩
abbrev main_v413 : Ref sig .tc := ⟨.hbm, 515, rfl⟩
abbrev main_v414 : Ref sig .tc := ⟨.hbm, 516, rfl⟩
abbrev main_v415 : Ref sig .tc := ⟨.hbm, 517, rfl⟩
abbrev main_v416 : Ref sig .tc := ⟨.hbm, 518, rfl⟩
abbrev main_v417 : Ref sig .tc := ⟨.hbm, 519, rfl⟩
abbrev main_v418 : Ref sig .tc := ⟨.hbm, 520, rfl⟩
abbrev main_v419 : Ref sig .tc := ⟨.hbm, 521, rfl⟩
abbrev main_v420 : Ref sig .tc := ⟨.hbm, 522, rfl⟩
abbrev main_v421 : Ref sig .tc := ⟨.hbm, 523, rfl⟩
abbrev main_v422 : Ref sig .tc := ⟨.hbm, 524, rfl⟩
abbrev main_v423 : Ref sig .tc := ⟨.hbm, 525, rfl⟩
abbrev main_v424 : Ref sig .tc := ⟨.hbm, 526, rfl⟩
abbrev main_cst_82 : Ref sig .tc := ⟨.hbm, 527, rfl⟩
abbrev main_v425 : Ref sig .tc := ⟨.hbm, 528, rfl⟩
abbrev main_cst_83 : Ref sig .tc := ⟨.hbm, 529, rfl⟩
abbrev main_v426 : Ref sig .tc := ⟨.hbm, 530, rfl⟩

abbrev nD : Nat := 1
abbrev τ : Topo := Topo.v7x

variable {F : FTy → Type} [FloatOps F]

class Facts₀ : Prop where
  reducesTo_S16384x768_S16384_d1 : S16384x768.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x768_0_1 : S16384x1.BroadcastsInDim S16384x768 (![0, 1] : Fin 2 → Fin S16384x768.rank)
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  transposes_S256x768_S768x256_1_0 : S256x768.Transposes [1, 0] S768x256
  reducesTo_S16x256_S16_d1 : S16x256.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x256_0_1 : S16x1.BroadcastsInDim S16x256 (![0, 1] : Fin 2 → Fin S16x256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  transposes_S256x256_S256x256_1_0 : S256x256.Transposes [1, 0] S256x256
  bcast_S_S16x256 : S_.BroadcastsInDim S16x256 (![] : Fin 0 → Fin S16x256.rank)
  transposes_S16x256_S256x16_1_0 : S16x256.Transposes [1, 0] S256x16
  reducesTo_S16384x16_S16384_d1 : S16384x16.ReducesTo [1] S16384
  bcast_S_S16384 : S_.BroadcastsInDim S16384 (![] : Fin 0 → Fin S16384.rank)
  bcast_S16384x1_S16384x16_0_1 : S16384x1.BroadcastsInDim S16384x16 (![0, 1] : Fin 2 → Fin S16384x16.rank)
  bcast_S_S16384x16 : S_.BroadcastsInDim S16384x16 (![] : Fin 0 → Fin S16384x16.rank)
  reducesTo_S16384x16_S16_d0 : S16384x16.ReducesTo [0] S16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S_d0_1 : S16384x16.ReducesTo [0, 1] S_
  transposes_S16384x16_S16x16384_1_0 : S16384x16.Transposes [1, 0] S16x16384
  transposes_S768x256_S256x768_1_0 : S768x256.Transposes [1, 0] S256x768
  bcast_S1x768_S16x768_0_1 : S1x768.BroadcastsInDim S16x768 (![0, 1] : Fin 2 → Fin S16x768.rank)
  slices_S16x768_S16x256_0_0 : S16x768.Slices ![0, 0] S16x256
  slices_S16x768_S16x256_0_256 : S16x768.Slices ![0, 256] S16x256
  slices_S16x768_S16x256_0_512 : S16x768.Slices ![0, 512] S16x256
  transposes_S512x256_S256x512_1_0 : S512x256.Transposes [1, 0] S256x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  transposes_S256x512_S512x256_1_0 : S256x512.Transposes [1, 0] S512x256
  bcast_S_S1 : S_.BroadcastsInDim S1 (![] : Fin 0 → Fin S1.rank)
  concatenates_S1_S1_S1_S3_d0 : Shape.Concatenates [S1, S1, S1] S3 0
  reducesTo_S3_S_d0 : S3.ReducesTo [0] S_
  dot_S16384x768_S768x256_S16384x256_1_0_0_1_n_n_wf : DotDims.WF S16384x768 S768x256 S16384x256 [1] [0] [0] [1] [] []
  dot_S16x256_S256x256_S16x256_1_0_0_1_n_n_wf : DotDims.WF S16x256 S256x256 S16x256 [1] [0] [0] [1] [] []
  dot_S16384x256_S256x16_S16384x16_1_0_0_1_n_n_wf : DotDims.WF S16384x256 S256x16 S16384x16 [1] [0] [0] [1] [] []
  dot_S16x16384_S16384x256_S16x256_1_0_0_1_n_n_wf : DotDims.WF S16x16384 S16384x256 S16x256 [1] [0] [0] [1] [] []
  dot_S16x256_S256x768_S16x768_1_0_0_1_n_n_wf : DotDims.WF S16x256 S256x768 S16x768 [1] [0] [0] [1] [] []
  dot_S16x256_S256x512_S16x512_1_0_0_1_n_n_wf : DotDims.WF S16x256 S256x512 S16x512 [1] [0] [0] [1] [] []
  dot_S16x512_S512x256_S16x256_1_0_0_1_n_n_wf : DotDims.WF S16x512 S512x256 S16x256 [1] [0] [0] [1] [] []

variable [Facts₀]

def dot_S16384x768_S768x256_S16384x256_1_0_0_1_n_n : DotDims S16384x768 S768x256 S16384x256 where
  lhsContracting := [1]
  rhsContracting := [0]
  lhsNonContracting := [0]
  rhsNonContracting := [1]
  lhsBatch := []
  rhsBatch := []
  wf := dot_S16384x768_S768x256_S16384x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def dot_S16x16384_S16384x256_S16x256_1_0_0_1_n_n : DotDims S16x16384 S16384x256 S16x256 where
  lhsContracting := [1]
  rhsContracting := [0]
  lhsNonContracting := [0]
  rhsNonContracting := [1]
  lhsBatch := []
  rhsBatch := []
  wf := dot_S16x16384_S16384x256_S16x256_1_0_0_1_n_n_wf
def dot_S16x256_S256x768_S16x768_1_0_0_1_n_n : DotDims S16x256 S256x768 S16x768 where
  lhsContracting := [1]
  rhsContracting := [0]
  lhsNonContracting := [0]
  rhsNonContracting := [1]
  lhsBatch := []
  rhsBatch := []
  wf := dot_S16x256_S256x768_S16x768_1_0_0_1_n_n_wf
def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf
def dot_S16x512_S512x256_S16x256_1_0_0_1_n_n : DotDims S16x512 S512x256 S16x256 where
  lhsContracting := [1]
  rhsContracting := [0]
  lhsNonContracting := [0]
  rhsNonContracting := [1]
  lhsBatch := []
  rhsBatch := []
  wf := dot_S16x512_S512x256_S16x256_1_0_0_1_n_n_wf

class Facts : Prop extends Facts₀ where

variable [Facts]
-- ==== Proof.SpecB.lean ====
import proofs.«128765_j37245956390967_2_alg».proof.Proof.Gen.Kernel.Skeleton
import Idealize.ShloMosaic.Lib.Pipeline.FrameBody

noncomputable section

namespace Cert.Kernel.Spec

open Idealize.ShloMosaic Idealize.SL.Sem Cert.Kernel Cert.Kernel.Gen

variable {F : FTy → Type} [FloatOps F]

/-- Keys of a block of rows: the normalised rows times the key weights. -/
def kBlock (x : Vec F S1024x768 .f32) (w b : Vec F S1x768 .f32) (wkT : Vec F S768x256 .f32) : Vec F S1024x256 .f32 :=
  k0_pay2 x w b wkT
/-- Values of the same rows. -/
def vBlock (x : Vec F S1024x768 .f32) (w b : Vec F S1x768 .f32) (wvT : Vec F S768x256 .f32) : Vec F S1024x256 .f32 :=
  k0_pay3 x w b wvT

/-- What an iteration reads besides the slots. -/
structure Params (F : FTy → Type) where
  kk : Vec F S16384x256 .f32
  vv : Vec F S16384x256 .f32
  wqT : Vec F S256x256 .f32
  lnsw : Vec F S1x256 .f32
  lnsb : Vec F S1x256 .f32
  wihT : Vec F S256x768 .f32
  whhT : Vec F S256x768 .f32
  bih : Vec F S1x768 .f32
  bhh : Vec F S1x768 .f32
  lnmw : Vec F S1x256 .f32
  lnmb : Vec F S1x256 .f32
  w1T : Vec F S256x512 .f32
  b1 : Vec F S1x512 .f32
  w2T : Vec F S512x256 .f32
  b2 : Vec F S1x256 .f32

variable (p : Params F)

/-- Rows `512·k … 512·k + 511`. -/
def chunkRect (k : Fin k1_t1_loop.trips) : Rect S16384x256 :=
  Rect.unit (s := S16384x256) (k1_off1 k) S512x256.size (k1_off1_inb k)

def query (s : Vec F S16x256 .f32) : FVec F S16x256 .f32 := k1_pay5 s p.lnsw p.lnsb p.wqT

abbrev Acc (F : FTy → Type) := FVec F S1x16 .f32 × FVec F S1x16 .f32 × FVec F S16x256 .f32

/-- One block of 512 rows folded into the three running sums. -/
def chunkStep (s : Vec F S16x256 .f32) (kc vc : Vec F S512x256 .f32) (a : Acc F) : Acc F :=
  (k1_pay10 (query p s) a.1 kc, k1_pay11 (query p s) a.2.1 kc, k1_pay12 (query p s) a.2.2 kc vc)

/-- The running sums before block `n`, from zero. -/
def accBefore (s : Vec F S16x256 .f32) : ℕ → Acc F
  | 0 => (k1_pay6, k1_pay7, k1_pay8)
  | n + 1 => if h : n < k1_t1_loop.trips then
      chunkStep p s (View.ld p.kk (chunkRect ⟨n, h⟩)) (View.ld p.vv (chunkRect ⟨n, h⟩)) (accBefore s n)
    else accBefore s n

def accAll (s : Vec F S16x256 .f32) : Acc F := accBefore p s k1_t1_loop.trips

def gru (s : Vec F S16x256 .f32) : FVec F S16x256 .f32 :=
  k1_pay13 s (accAll p s).1 (accAll p s).2.2 p.wihT p.bih p.whhT p.bhh

def nextSlots (s : Vec F S16x256 .f32) : FVec F S16x256 .f32 :=
  k1_pay16 (gru p s)
    (k1_pay14 s (accAll p s).1 (accAll p s).2.2 p.wihT p.bih p.whhT p.bhh)
    (k1_pay15 s (accAll p s).1 (accAll p s).2.2 p.wihT p.bih p.whhT p.bhh)
    p.lnmw p.lnmb p.w1T p.b1 p.w2T p.b2

def nextVar (s : Vec F S16x256 .f32) (acc : Vec F S1x1 .f32) : FVec F S1x1 .f32 :=
  k1_pay1 (accAll p s).1 (accAll p s).2.1 acc

/-- The slots before iteration `n`. -/
def slotsAt (s0 : Vec F S16x256 .f32) : ℕ → Vec F S16x256 .f32
  | 0 => k1_pay3 s0
  | n + 1 => nextSlots p (slotsAt s0 n)

/-- The variance sum before iteration `n`. -/
def varAt (s0 : Vec F S16x256 .f32) : ℕ → Vec F S1x1 .f32
  | 0 => k1_pay4
  | n + 1 => nextVar p (slotsAt p s0 n) (varAt s0 n)

def outSlots (s0 : Vec F S16x256 .f32) : Vec F S16x256 .f32 := slotsAt p s0 3
def outVar (s0 : Vec F S16x256 .f32) : Vec F S1x1 .f32 := k1_pay2 (varAt p s0 3)

end Cert.Kernel.Spec

end
-- ==== Proof.R0B.lean ====
import proofs.«128765_j37245956390967_2_alg».proof.Proof.Gen.Kernel.Launch
import proofs.«128765_j37245956390967_2_alg».proof.Proof.Gen.Kernel.Skeleton
import proofs.«128765_j37245956390967_2_alg».proof.Proof.Gen.Kernel.Points
import proofs.«128765_j37245956390967_2_alg».proof.Proof.SpecB
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => Cert.Kernel.Spec.kBlock (iblk0 V c 0 t) (iblk0 V c 1 t) (iblk0 V c 2 t) (iblk0 V c 3 t)
    | ⟨6, _⟩ => Cert.Kernel.Spec.vBlock (iblk0 V c 0 t) (iblk0 V c 1 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = Cert.Kernel.Spec.kBlock (iblk0 V c 0 t) (iblk0 V c 1 t) (iblk0 V c 2 t) (iblk0 V c 3 t) := by dsimp only [dat0]
theorem after0_6 (c : Dev nD) (t : Fin cfg0.N) : (dat0 V c).after 6 t = Cert.Kernel.Spec.vBlock (iblk0 V c 0 t) (iblk0 V c 1 t) (iblk0 V c 2 t) (iblk0 V c 4 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ ∀ d, (dat0 V c).before 4 t d = iblk0 V c 4 t := by
  refine ⟨?_, ?_, ?_, ?_, ?_⟩ <;> exact fun d =>
    ((dat0 V c).before_in_eq_fetched _ rfl (fun _ => rfl) (fun _ _ _ => rfl)
      (fun t => by unfold Dat.blockOf; dsimp only [dat0, iblk0]; try rfl) t d).trans
      (by unfold Dat.fetched Dat.blockOf iblk0; rw [A_eq0]; try rfl)

set_option maxHeartbeats 4000000 in
theorem body_obligation0 (c : Dev nD) : BodyObligation (dat0 (F := F) V c) (defs₀ (F := F)) Variants.none () Set.univ := fun t => by
  have hz : (![0, 0] : Fin 2 → Nat) = fun _ => 0 := by funext a; fin_cases a <;> rfl
  rw [bigSep_W0, bigSep_W0]
  simp only [before0 V c t]
  rw [show (dat0 V c).Φ t.succ = (dat0 V c).Φ t.castSucc from rfl,
    show (dat0 V c).owesAt () t.succ = (dat0 V c).owesAt () t.castSucc from rfl]
  dsimp only [dat0]
  generalize iblk0 V c 0 t = x0; generalize iblk0 V c 1 t = x1; generalize iblk0 V c 2 t = x2
  generalize iblk0 V c 3 t = x3; generalize iblk0 V c 4 t = x4
  sl_whnfR [defs₀, Defs.onTc]
  simp only [cc0__qkv_kernel_eq_skeleton]; unfold cc0__qkv_kernel_skel
  simp only [k0_part1_eq_skeleton]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩⟩
  subst hf0 hf1 hf2 hf3 hf4
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5] <;> (
    iexists _; isplitr
    swap; · first | iexact H5 | iexact H6
    ipureintro
    try sl_unfold_run_names
    refine (View.read_writes_eq_canon _ _ _ (fun y => ⟨_, List.mem_singleton_self _, View.mem_set_unit_zero hz inb_S1024x256_S1024x256_0_0 y⟩)).trans
      ((View.canon_unit_zero hz _ _).trans ?_)
    first | unfold Spec.kBlock | unfold Spec.vBlock
    congr 1 <;> exact (View.readAt_eq_ld _ _ _).trans (View.ld_unit_zero hz _ _))

end Cert.Kernel.R0

end
-- ==== Proof.ArrB.lean ====
import proofs.«128765_j37245956390967_2_alg».proof.Proof.Gen.Kernel.Launch
import proofs.«128765_j37245956390967_2_alg».proof.Proof.Gen.Kernel.Points
import proofs.«128765_j37245956390967_2_alg».proof.Proof.SpecB
import Idealize.ShloMosaic.Lib.Pipeline.Value
import Idealize.ShloMosaic.Lib.ValueIdx

noncomputable section

namespace Cert.Kernel.Arr

open Idealize.ShloMosaic Idealize.ShloMosaic.TcCoe Idealize.ShloMosaic.ValueIdx
open Idealize.ShloMosaic.Pipeline (Dat)
open Cert.Kernel Cert.Kernel.Gen

variable {F : FTy → Type} [FloatOps F]

/-- Precomposition with a map that moves no coordinate changes nothing. -/
theorem comp_fix {s : Shape} {α : Type} (Y : s.Idx → α) {e : s.Idx → s.Idx} (h : ∀ j a, (e j a : ℕ) = j a) :
    (fun j => Y (e j)) = Y :=
  funext fun j => congrArg Y (funext fun a => Fin.ext (h j a))

theorem pt0_lt (t : Fin cfg0.N) : t.val < 16 := Nat.lt_of_lt_of_eq t.isLt N_0

theorem row_lt (t : Fin 16) (y : S1024x768.Idx) : 1024 * t.val + (y 0).val < 16384 := by
  have := idx2_lt0 y; have := t.isLt; omega

def rows (X : Vec F S16384x768 .f32) (t : Fin 16) : Vec F S1024x768 .f32 :=
  fun y => X (ix2 ⟨1024 * t.val + (y 0).val, row_lt t y⟩ (y 1))

theorem blockOf_lt (i : S16384x256.Idx) : (i 0).val / 1024 < 16 := by
  have := idx2_lt0 i; omega

theorem inBlock_lt (i : S16384x256.Idx) : (i 0).val % 1024 < 1024 := Nat.mod_lt _ (by norm_num)

def kArr (X : Vec F S16384x768 .f32) (w b : Vec F S1x768 .f32) (wkT : Vec F S768x256 .f32) : Vec F S16384x256 .f32 :=
  fun i => Spec.kBlock (rows X ⟨(i 0).val / 1024, blockOf_lt i⟩) w b wkT (ix2 ⟨(i 0).val % 1024, inBlock_lt i⟩ (i 1))

def vArr (X : Vec F S16384x768 .f32) (w b : Vec F S1x768 .f32) (wvT : Vec F S768x256 .f32) : Vec F S16384x256 .f32 :=
  fun i => Spec.vBlock (rows X ⟨(i 0).val / 1024, blockOf_lt i⟩) w b wvT (ix2 ⟨(i 0).val % 1024, inBlock_lt i⟩ (i 1))

theorem idx0z : ∀ (w : Fin 7), 0 < w.val ∧ w.val < 5 → ∀ (t : Fin grid0.N) (a : Fin (win0 w).shape.rank),
    (win0 w).index t a = 0 := by decide +kernel

theorem idx0r : ∀ (w : Fin 7), w.val = 0 ∨ 5 ≤ w.val → ∀ (t : Fin grid0.N) (a : Fin (win0 w).shape.rank),
    (win0 w).index t a = if a.val = 0 then t.val else 0 := by decide +kernel

theorem emb0 (w : Fin 7) (hw : 0 < w.val ∧ w.val < 5) (t : Fin grid0.N) (j : ((win0 w).xblock (grid0.coords t)).Idx)
    (a : Fin (win0 w).shape.rank) : (((win0 w).rect t).emb j a : ℕ) = j a :=
  (win0 w).rect_emb_val_of_index_zero t a (idx0z w hw t a) j

/-- Where an element of the `k`-th block of 1024 rows sits in the array. -/
theorem row_emb {n : ℕ} {e : (⟨2, ![1024, n]⟩ : Shape).Idx → (⟨2, ![16384, n]⟩ : Shape).Idx} {idx : Fin 2 → ℕ} {k : ℕ}
    (he : ∀ j a, (e j a : ℕ) = idx a * ![1024, n] a + j a) (hi : ∀ a, idx a = if a.val = 0 then k else 0)
    (j : (⟨2, ![1024, n]⟩ : Shape).Idx) : (e j 0).val = 1024 * k + (j 0).val ∧ (e j 1).val = (j 1).val :=
  ⟨by rw [he, hi]; show k * 1024 + _ = _; omega, by rw [he, hi]; show 0 * n + _ = _; omega⟩

theorem blk0_0 (X : Vec F S16384x768 .f32) (t : Fin cfg0.N) :
    (((cfg0.win 0).blk t).view.read (Elt F) X : Vec F S1024x768 .f32) = rows X ⟨t.val, pt0_lt t⟩ := by
  funext j
  obtain ⟨h0, h1⟩ := row_emb (win0_0.rect_emb_val t) (idx0r 0 (by decide) t) j
  refine congrArg X (funext fun a => Fin.ext ?_)
  match a with
  | ⟨0, _⟩ => exact h0
  | ⟨1, _⟩ => exact h1

theorem blk0_1 (Y : Vec F S1x768 .f32) (t : Fin cfg0.N) :
    (((cfg0.win 1).blk t).view.read (Elt F) Y : Vec F S1x768 .f32) = Y := comp_fix Y (emb0 1 (by decide) t)

theorem blk0_2 (Y : Vec F S1x768 .f32) (t : Fin cfg0.N) :
    (((cfg0.win 2).blk t).view.read (Elt F) Y : Vec F S1x768 .f32) = Y := comp_fix Y (emb0 2 (by decide) t)

theorem blk0_3 (Y : Vec F S768x256 .f32) (t : Fin cfg0.N) :
    (((cfg0.win 3).blk t).view.read (Elt F) Y : Vec F S768x256 .f32) = Y := comp_fix Y (emb0 3 (by decide) t)

theorem blk0_4 (Y : Vec F S768x256 .f32) (t : Fin cfg0.N) :
    (((cfg0.win 4).blk t).view.read (Elt F) Y : Vec F S768x256 .f32) = Y := comp_fix Y (emb0 4 (by decide) t)

/-- Row `1024·r + y₀` of an array built from sixteen blocks is row `y₀` of block `r`. -/
theorem at_block {α : Type} (B : Fin 16 → S1024x256.Idx → α) (r : Fin 16) (y : S1024x256.Idx) (i : S16384x256.Idx)
    (h0 : (i 0).val = 1024 * r.val + (y 0).val) (h1 : (i 1).val = (y 1).val) :
    B ⟨(i 0).val / 1024, blockOf_lt i⟩ (ix2 ⟨(i 0).val % 1024, inBlock_lt i⟩ (i 1)) = B r y := by
  have := idx2_lt0 y
  refine congrArg₂ B (Fin.ext (by show (i 0).val / 1024 = r.val; omega)) (funext fun a => Fin.ext ?_)
  match a with
  | ⟨0, _⟩ => show (i 0).val % 1024 = (y 0).val; omega
  | ⟨1, _⟩ => exact h1

theorem kArr_at (X : Vec F S16384x768 .f32) (w b : Vec F S1x768 .f32) (wkT : Vec F S768x256 .f32)
    (r : Fin 16) (y : S1024x256.Idx) (i : S16384x256.Idx)
    (h0 : (i 0).val = 1024 * r.val + (y 0).val) (h1 : (i 1).val = (y 1).val) :
    kArr X w b wkT i = Spec.kBlock (rows X r) w b wkT y :=
  at_block (fun r => Spec.kBlock (rows X r) w b wkT) r y i h0 h1

theorem vArr_at (X : Vec F S16384x768 .f32) (w b : Vec F S1x768 .f32) (wvT : Vec F S768x256 .f32)
    (r : Fin 16) (y : S1024x256.Idx) (i : S16384x256.Idx)
    (h0 : (i 0).val = 1024 * r.val + (y 0).val) (h1 : (i 1).val = (y 1).val) :
    vArr X w b wvT i = Spec.vBlock (rows X r) w b wvT y :=
  at_block (fun r => Spec.vBlock (rows X r) w b wvT) r y i h0 h1

/-- The sixteen row blocks cover the array. -/
theorem cover0 {e : Fin cfg0.N → S1024x256.Idx → S16384x256.Idx}
    (he : ∀ t j, (e t j 0).val = 1024 * t.val + (j 0).val ∧ (e t j 1).val = (j 1).val) (i : S16384x256.Idx) :
    ∃ t j, e t j = i := by
  refine ⟨⟨_, Nat.lt_of_lt_of_eq (blockOf_lt i) N_0.symm⟩, ix2 ⟨_, inBlock_lt i⟩ (i 1), funext fun a => Fin.ext ?_⟩
  match a with
  | ⟨0, _⟩ => exact (he _ _).1.trans (Nat.div_add_mod _ _)
  | ⟨1, _⟩ => exact (he _ _).2

theorem arr0_5 {c : Dev nD} (dat : Dat τ (Elt F) Unit ℕ (UR sig nD τ) ℕ cfg0 c)
    (X : Vec F S16384x768 .f32) (w b : Vec F S1x768 .f32) (wkT : Vec F S768x256 .f32)
    (h5 : ∀ t : Fin cfg0.N, (dat.after 5 t : Vec F S1024x256 .f32) = Spec.kBlock (rows X ⟨t.val, pt0_lt t⟩) w b wkT) :
    (dat.arrAt 5 cfg0.N : Vec F S16384x256 .f32) = kArr X w b wkT := by
  have he := fun t => row_emb (win0_5.rect_emb_val t) (idx0r 5 (by decide) t)
  refine dat.arrAt_eq_of_cover 5 (kArr X w b wkT) (fun t _ => ?_) fun i => ?_
  · exact (h5 t).trans (funext fun j => (kArr_at X w b wkT ⟨t.val, pt0_lt t⟩ j _ (he t j).1 (he t j).2).symm)
  · obtain ⟨t, j, e⟩ := cover0 he i
    exact ⟨t, flush0_5 t, Finset.mem_map.mpr ⟨j, Finset.mem_univ _, e⟩⟩

theorem arr0_6 {c : Dev nD} (dat : Dat τ (Elt F) Unit ℕ (UR sig nD τ) ℕ cfg0 c)
    (X : Vec F S16384x768 .f32) (w b : Vec F S1x768 .f32) (wvT : Vec F S768x256 .f32)
    (h6 : ∀ t : Fin cfg0.N, (dat.after 6 t : Vec F S1024x256 .f32) = Spec.vBlock (rows X ⟨t.val, pt0_lt t⟩) w b wvT) :
    (dat.arrAt 6 cfg0.N : Vec F S16384x256 .f32) = vArr X w b wvT := by
  have he := fun t => row_emb (win0_6.rect_emb_val t) (idx0r 6 (by decide) t)
  refine dat.arrAt_eq_of_cover 6 (vArr X w b wvT) (fun t _ => ?_) fun i => ?_
  · exact (h6 t).trans (funext fun j => (vArr_at X w b wvT ⟨t.val, pt0_lt t⟩ j _ (he t j).1 (he t j).2).symm)
  · obtain ⟨t, j, e⟩ := cover0 he i
    exact ⟨t, flush0_6 t, Finset.mem_map.mpr ⟨j, Finset.mem_univ _, e⟩⟩

theorem last1_lt : 2 < cfg1.N := by rw [show cfg1.N = 3 from N_1]; decide

theorem idx1 : ∀ (w : Fin 18) (t : Fin grid1.N) (a : Fin (win1 w).shape.rank), (win1 w).index t a = 0 := by
  decide +kernel

theorem emb1 (w : Fin 18) (t : Fin grid1.N) (j : ((win1 w).xblock (grid1.coords t)).Idx) (a : Fin (win1 w).shape.rank) :
    (((win1 w).rect t).emb j a : ℕ) = j a :=
  (win1 w).rect_emb_val_of_index_zero t a (idx1 w t a) j

theorem eq_last1 (t : Fin cfg1.N) (h : t.val % 3 = 2) : t = ⟨2, last1_lt⟩ :=
  Fin.ext (by have h3 : t.val < 3 := Nat.lt_of_lt_of_eq t.isLt N_1; show t.val = 2; omega)

/-- A set that holds every image of a map moving no coordinate holds everything. -/
theorem mem_of_fix {s : Shape} {S : Finset s.Idx} {e : s.Idx → s.Idx} (h : ∀ j a, (e j a : ℕ) = j a) (hm : ∀ j, e j ∈ S)
    (i : s.Idx) : i ∈ S :=
  (funext fun a => Fin.ext (h i a) : e i = i) ▸ hm i

theorem arr1_16 {c : Dev nD} (dat : Dat τ (Elt F) Unit ℕ (UR sig nD τ) ℕ cfg1 c) (Y : Vec F S16x256 .f32)
    (h : (dat.after 16 ⟨2, last1_lt⟩ : Vec F S16x256 .f32) = Y) :
    (dat.arrAt 16 cfg1.N : Vec F S16x256 .f32) = Y := by
  refine dat.arrAt_eq_of_cover 16 Y (fun t hf => ?_) fun i =>
    ⟨⟨2, last1_lt⟩, (flush1_16 _).mpr rfl, mem_of_fix (emb1 16 _) (View.emb_mem_set _) i⟩
  obtain rfl := eq_last1 t ((flush1_16 t).mp hf)
  exact h.trans (comp_fix Y (emb1 16 _)).symm

theorem arr1_17 {c : Dev nD} (dat : Dat τ (Elt F) Unit ℕ (UR sig nD τ) ℕ cfg1 c) (Y : Vec F S1x1 .f32)
    (h : (dat.after 17 ⟨2, last1_lt⟩ : Vec F S1x1 .f32) = Y) :
    (dat.arrAt 17 cfg1.N : Vec F S1x1 .f32) = Y := by
  refine dat.arrAt_eq_of_cover 17 Y (fun t hf => ?_) fun i =>
    ⟨⟨2, last1_lt⟩, (flush1_17 _).mpr rfl, mem_of_fix (emb1 17 _) (View.emb_mem_set _) i⟩
  obtain rfl := eq_last1 t ((flush1_17 t).mp hf)
  exact h.trans (comp_fix Y (emb1 17 _)).symm

end Cert.Kernel.Arr

end
-- ==== Proof.R1LoopB.lean ====
import proofs.«128765_j37245956390967_2_alg».proof.Proof.Gen.Kernel.Loops
import proofs.«128765_j37245956390967_2_alg».proof.Proof.SpecB
import Idealize.ShloMosaic.Lib.Pipeline.Value
import Idealize.ShloMosaic.Lib.Pipeline.TableIdle

noncomputable section

namespace Cert.Kernel.R1

open Idealize.ShloMosaic Idealize.ShloMosaic.TcCoe
open Idealize.SL Idealize.SL.RA Idealize.SL.BI Idealize.SL.BI.BIBase
open Cert.Kernel Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

theorem hz2 : (![0, 0] : Fin 2 → Nat) = fun _ => 0 := funext fun a => by fin_cases a <;> rfl

section
variable {c : Dev nD} {sp sh e} {m : Memref sig .tc sp sh e} (h : m.IsWhole) {q : PosShare TreeShare} {X : sh.Idx → Elt F e}

-- Reading is a bijection here, so what is read fixes the contents.
theorem owns_unread : (owns (c : Thread nD τ) m q X : sProp 𝕄) = (m.view.loc (c : Thread nD τ) ↦[m.view.set]{q} h.unread X) := by
  rw [owns_eq_rep, h.eq_unread (View.read_rep _ X)]

theorem held_of_read {f} (hf : m.view.read (Elt F) f = X) :
    (m.view.loc (c : Thread nD τ) ↦[m.view.set]{q} f : sProp 𝕄) ⊢ (m.view.loc (c : Thread nD τ) ↦[m.view.set]{q} h.unread X) :=
  Entails.of_eq (by rw [h.eq_unread hf])
end

-- The last write covers every index, so what is read back is its payload.
theorem read_store0 {κ sp S e} (v : View sig κ sp S e) (f) {off : Fin S.rank → ℕ} (h : off = fun _ => 0) (inb) (w : S.Idx → Elt F e) (L) :
    v.read (Elt F) (v.writes (Elt F) f ((⟨Rect.unit off S.size inb, w⟩ : View.Piece (Elt F) S e) :: L)) = w :=
  (View.read_writes_eq_canon v f _ fun y => ⟨_, List.Mem.head _, View.mem_set_unit_zero h inb y⟩).trans (View.canon_cons_unit_zero h inb w L)

section
variable {a b : ℕ} {e : EltTy} (inb : ∀ j, (![0, 0] : Fin 2 → ℕ) j + ![a, b] j ≤ ![a, b] j) (w : (⟨2, ![a, b]⟩ : Shape).Idx → Elt F e)

theorem ld0 : View.ld w (Rect.unit (s := ⟨2, ![a, b]⟩) ![0, 0] ![a, b] inb) = w :=
  View.ld_unit_zero (S := ⟨2, ![a, b]⟩) hz2 inb w

theorem rc0 {κ sp} (v : View sig κ sp ⟨2, ![a, b]⟩ e) :
    v.readCov [(⟨Rect.unit (s := ⟨2, ![a, b]⟩) ![0, 0] ![a, b] inb, w⟩ : View.Piece (Elt F) ⟨2, ![a, b]⟩ e)] (Rect.unit (s := ⟨2, ![a, b]⟩) ![0, 0] ![a, b] inb).toLoadRect = w :=
  View.readCov_unit_zero (S := ⟨2, ![a, b]⟩) v hz2 inb w
end

variable (x1 x2 : Vec F S16384x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (s : Vec F S16x256 .f32)

abbrev P : Spec.Params F :=
  ⟨x1, x2, x4, x5, x6, x7, x8, x9, x10, x11, x12, x13, x14, x15, x16⟩

-- The next slots and the next variance term, over any value equal to the fold over all the chunks.
theorem slots_eq {t : Spec.Acc F} (ht : t = Spec.accAll (P x1 x2 x4 x5 x6 x7 x8 x9 x10 x11 x12 x13 x14 x15 x16) s) :
    k1_pay16 (k1_pay13 s t.1 t.2.2 x7 x9 x8 x10) (k1_pay14 s t.1 t.2.2 x7 x9 x8 x10) (k1_pay15 s t.1 t.2.2 x7 x9 x8 x10) x11 x12 x13 x14 x15 x16
      = Spec.nextSlots (P x1 x2 x4 x5 x6 x7 x8 x9 x10 x11 x12 x13 x14 x15 x16) s := ht ▸ rfl

theorem var_eq (a : Vec F S1x1 .f32) {t : Spec.Acc F} (ht : t = Spec.accAll (P x1 x2 x4 x5 x6 x7 x8 x9 x10 x11 x12 x13 x14 x15 x16) s) :
    k1_pay1 t.1 t.2.1 a = Spec.nextVar (P x1 x2 x4 x5 x6 x7 x8 x9 x10 x11 x12 x13 x14 x15 x16) s a := ht ▸ rfl

variable (c : Dev nD) (i : grid1.Coords) (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
  (v3 : Vec F S16x256 .f32) (v35 v36 : FVec F S1x16 .f32) (v37 : FVec F S16x256 .f32)

-- Induction on the trips: each adds its chunk's terms, so the carried value is the fold over the chunks so far.
theorem st_eq (n : ℕ) : st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 (k1_pay5 s x5 x6 x4) v35 v36 v37 (harg1.unread x1) (harg2.unread x2) (k1_pay6 (F := F), k1_pay7 (F := F), k1_pay8 (F := F)) n = Spec.accBefore (P x1 x2 x4 x5 x6 x7 x8 x9 x10 x11 x12 x13 x14 x15 x16) s n := by
  induction n with
  | zero => rfl
  | succ n ih =>
    rw [st_k1_t1.eq_2, ih, Spec.accBefore.eq_2]; unfold st_k1_t1Step tripR_k1_t1 trip_k1_t1
    simp only [Spec.chunkStep, Spec.query, Spec.chunkRect, View.readAt_eq_ld, Memref.IsWhole.read_unread]

end Cert.Kernel.R1

end
-- ==== Proof.R1CaseAB.lean ====
import proofs.«128765_j37245956390967_2_alg».proof.Proof.R1LoopB

namespace Cert.Kernel.R1

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

theorem run1_A (c : Dev nD) (E : Set ℕ) (i : grid1.Coords) (hc0 : cond1_0 i) (hc1 : ¬cond1_1 i)
    (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
    (x1 x2 : Vec F S16384x256 .f32) (x3 : Vec F S16x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (xo17 : Vec F S16x256 .f32) (xo18 : Vec F S1x1 .f32) (K : PUnit → sProp 𝕄) :
    iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
        ∗ owns c arg17 fullShare xo17 ∗ owns c arg18 fullShare xo18 ∗ (∃ d, owns c arg19 fullShare d) ∗ (∃ d, owns c arg20 fullShare d)
        ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
            ∗ owns c arg17 fullShare xo17 ∗ owns c arg18 fullShare xo18 ∗ owns c arg19 fullShare (Spec.nextSlots (P x1 x2 x4 x5 x6 x7 x8 x9 x10 x11 x12 x13 x14 x15 x16) (k1_pay3 x3)) ∗ owns c arg20 fullShare (Spec.nextVar (P x1 x2 x4 x5 x6 x7 x8 x9 x10 x11 x12 x13 x14 x15 x16) (k1_pay3 x3) (k1_pay4 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_kernel_eq_skeleton, owns_unread, *]; unfold cc1_kernel_skel
  iintro ⟨H1, H2, H3, H4, H5, H6, H7, H8, H9, H10, H11, H12, H13, H14, H15, H16, H17, H18, ⟨%d19, H19⟩, ⟨%d20, H20⟩, Hk⟩
  sl_exec (disch := assumption)
  sl_step
  iapply Hk
  iframe H1 H2 H3 H4 H5 H6 H7 H8 H9 H10 H11 H12 H13 H14 H15 H16 H17 H18
  istop
  refine BI.sep_mono (held_of_read _ ?_) (held_of_read _ ?_)
  all_goals (sl_unfold_words; rw [read_store0 _ _ hz2]; simp only [View.readAt_eq_ld, Memref.IsWhole.read_unread, ld0, rc0])
  exacts [slots_eq (ht := st_eq ..) .., var_eq (ht := st_eq ..) ..]

end Cert.Kernel.R1
-- ==== Proof.R1CaseBB.lean ====
import proofs.«128765_j37245956390967_2_alg».proof.Proof.R1LoopB

namespace Cert.Kernel.R1

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

theorem run1_B (c : Dev nD) (E : Set ℕ) (i : grid1.Coords) (hc0 : ¬cond1_0 i) (hc1 : ¬cond1_1 i)
    (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
    (x1 x2 : Vec F S16384x256 .f32) (x3 : Vec F S16x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (xo17 : Vec F S16x256 .f32) (xo18 : Vec F S1x1 .f32) (s : Vec F S16x256 .f32) (a : Vec F S1x1 .f32) (K : PUnit → sProp 𝕄) :
    iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
        ∗ owns c arg17 fullShare xo17 ∗ owns c arg18 fullShare xo18 ∗ owns c arg19 fullShare s ∗ owns c arg20 fullShare a
        ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
            ∗ owns c arg17 fullShare xo17 ∗ owns c arg18 fullShare xo18 ∗ owns c arg19 fullShare (Spec.nextSlots (P x1 x2 x4 x5 x6 x7 x8 x9 x10 x11 x12 x13 x14 x15 x16) s) ∗ owns c arg20 fullShare (Spec.nextVar (P x1 x2 x4 x5 x6 x7 x8 x9 x10 x11 x12 x13 x14 x15 x16) s a)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_kernel_eq_skeleton, owns_unread, *]; unfold cc1_kernel_skel
  iintro ⟨H1, H2, H3, H4, H5, H6, H7, H8, H9, H10, H11, H12, H13, H14, H15, H16, H17, H18, H19, H20, Hk⟩
  sl_exec (disch := assumption)
  sl_step
  iapply Hk
  iframe H1 H2 H3 H4 H5 H6 H7 H8 H9 H10 H11 H12 H13 H14 H15 H16 H17 H18
  istop
  refine BI.sep_mono (held_of_read _ ?_) (held_of_read _ ?_)
  all_goals (sl_unfold_words; rw [read_store0 _ _ hz2]; simp only [View.readAt_eq_ld, Memref.IsWhole.read_unread, ld0, rc0])
  exacts [slots_eq (ht := st_eq ..) .., var_eq (ht := st_eq ..) ..]

end Cert.Kernel.R1
-- ==== Proof.R1CaseCB.lean ====
import proofs.«128765_j37245956390967_2_alg».proof.Proof.R1LoopB

namespace Cert.Kernel.R1

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

theorem run1_C (c : Dev nD) (E : Set ℕ) (i : grid1.Coords) (hc0 : ¬cond1_0 i) (hc1 : cond1_1 i)
    (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
    (x1 x2 : Vec F S16384x256 .f32) (x3 : Vec F S16x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (s : Vec F S16x256 .f32) (a : Vec F S1x1 .f32) (K : PUnit → sProp 𝕄) :
    iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
        ∗ (∃ d, owns c arg17 fullShare d) ∗ (∃ d, owns c arg18 fullShare d) ∗ owns c arg19 fullShare s ∗ owns c arg20 fullShare a
        ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
            ∗ owns c arg17 fullShare (Spec.nextSlots (P x1 x2 x4 x5 x6 x7 x8 x9 x10 x11 x12 x13 x14 x15 x16) s) ∗ owns c arg18 fullShare (k1_pay2 (Spec.nextVar (P x1 x2 x4 x5 x6 x7 x8 x9 x10 x11 x12 x13 x14 x15 x16) s a)) ∗ owns c arg19 fullShare (Spec.nextSlots (P x1 x2 x4 x5 x6 x7 x8 x9 x10 x11 x12 x13 x14 x15 x16) s) ∗ owns c arg20 fullShare (Spec.nextVar (P x1 x2 x4 x5 x6 x7 x8 x9 x10 x11 x12 x13 x14 x15 x16) s a)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_kernel_eq_skeleton, owns_unread, *]; unfold cc1_kernel_skel
  iintro ⟨H1, H2, H3, H4, H5, H6, H7, H8, H9, H10, H11, H12, H13, H14, H15, H16, ⟨%d17, H17⟩, ⟨%d18, H18⟩, H19, H20, Hk⟩
  sl_exec (disch := assumption)
  sl_step
  iapply Hk
  iframe H1 H2 H3 H4 H5 H6 H7 H8 H9 H10 H11 H12 H13 H14 H15 H16
  isplitl [H17]; rotate_left; isplitl [H18]; rotate_left; isplitl [H19]
  all_goals (istop; refine held_of_read _ ?_)
  all_goals (sl_unfold_words; rw [read_store0 _ _ hz2]; simp only [View.readAt_eq_ld, Memref.IsWhole.read_unread, ld0, rc0])
  exacts [slots_eq (ht := st_eq ..) .., var_eq (ht := st_eq ..) .., slots_eq (ht := st_eq ..) .., congrArg _ (var_eq (ht := st_eq ..) ..)]

end Cert.Kernel.R1
-- ==== Proof.R1RunB.lean ====
import proofs.«128765_j37245956390967_2_alg».proof.Proof.R1CaseAB
import proofs.«128765_j37245956390967_2_alg».proof.Proof.R1CaseBB
import proofs.«128765_j37245956390967_2_alg».proof.Proof.R1CaseCB
-- ==== Proof.R1B.lean ====
import proofs.«128765_j37245956390967_2_alg».proof.Proof.ArrB
import proofs.«128765_j37245956390967_2_alg».proof.Proof.R1RunB
import Idealize.ShloMosaic.Lib.Pipeline.RegionsLoop

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def P1 (c : Dev nD) : Spec.Params F :=
  ⟨V c (Pipeline.arrRef spec1 0), V c (Pipeline.arrRef spec1 1), V c (Pipeline.arrRef spec1 3), V c (Pipeline.arrRef spec1 4), V c (Pipeline.arrRef spec1 5), V c (Pipeline.arrRef spec1 6), V c (Pipeline.arrRef spec1 7), V c (Pipeline.arrRef spec1 8), V c (Pipeline.arrRef spec1 9), V c (Pipeline.arrRef spec1 10), V c (Pipeline.arrRef spec1 11), V c (Pipeline.arrRef spec1 12), V c (Pipeline.arrRef spec1 13), V c (Pipeline.arrRef spec1 14), V c (Pipeline.arrRef spec1 15)⟩
def s0 (c : Dev nD) : Vec F S16x256 .f32 := V c (Pipeline.arrRef spec1 2)

theorem hcond1_0 : ∀ t : Fin cfg1.N, cond1_0 (grid1.coords t) ↔ t.val % 3 = 0 :=
  (by decide +kernel : ∀ t : Fin grid1.N, cond1_0 (grid1.coords t) ↔ t.val % 3 = 0)
theorem hcond1_1 : ∀ t : Fin cfg1.N, cond1_1 (grid1.coords t) ↔ t.val % 3 = 2 :=
  (by decide +kernel : ∀ t : Fin grid1.N, cond1_1 (grid1.coords t) ↔ t.val % 3 = 2)

theorem live1 : ∀ (w : Fin cfg1.W) (t : Fin cfg1.N), w.val < 16 ∨ cond1_1 (grid1.coords t) → cfg1.idle w (grid1.coords t) = false := by decide +kernel
theorem idle1 : ∀ (w : Fin cfg1.W) (t : Fin cfg1.N), 16 ≤ w.val → ¬cond1_1 (grid1.coords t) → cfg1.idle w (grid1.coords t) = true ∧ (cfg1.win w).flush t = false := by decide +kernel

abbrev scM1_0 : Memref sig .tc .vmem S16x256 .f32 := Memref.whole cc1_scratch0
abbrev scM1_1 : Memref sig .tc .vmem S1x1 .f32 := Memref.whole cc1_scratch1

/-- The invariant, with what it says of the slots and of the accumulator as parameters. -/
def Inv1 (c : Dev nD) (A B : sProp 𝕄) : sProp 𝕄 :=
  iprop(((A ∗ B) ∗ Pipeline.scopedRestBut (Ix := Unit) (Name := ℕ) (U := UR sig nD τ) (Lvl := ℕ) (Val := Elt F) spec1 c [cc1_scratch0, cc1_scratch1]) ∗ (∃ r, prngReg c r))

theorem PhiA1_eq (c : Dev nD) :
    (Pipeline.ΦA spec1 c : sProp 𝕄) = Inv1 c iprop(∃ d, owns (c : Thread nD τ) scM1_0 fullShare d) iprop(∃ d, owns (c : Thread nD τ) scM1_1 fullShare d) := by
  unfold Pipeline.ΦA Inv1
  rw [Pipeline.scopedRest_split_of_list spec1 c [cc1_scratch0, cc1_scratch1] ⟨⟨rfl, by decide⟩, rfl, by decide⟩ (by decide)]
  simp only [scM1_0, scM1_1, owns_whole]; rfl

def PhiS1 (c : Dev nD) : (n : ℕ) → n ≤ cfg1.N → sProp 𝕄
  | 0, _ => Pipeline.ΦA spec1 c
  | n + 1, _ => Inv1 c (owns (c : Thread nD τ) scM1_0 fullShare (Spec.slotsAt (P1 V c) (s0 V c) (n + 1))) (owns (c : Thread nD τ) scM1_1 fullShare (Spec.varAt (P1 V c) (s0 V c) (n + 1)))

theorem PhiS1_pos (c : Dev nD) (n : ℕ) (h : n ≤ cfg1.N) (hz : n ≠ 0) :
    PhiS1 V c n h = Inv1 c (owns (c : Thread nD τ) scM1_0 fullShare (Spec.slotsAt (P1 V c) (s0 V c) n)) (owns (c : Thread nD τ) scM1_1 fullShare (Spec.varAt (P1 V c) (s0 V c) n)) := by
  cases n with
  | zero => exact absurd rfl hz
  | succ n => rfl

theorem PhiS1_zero (c : Dev nD) (n : ℕ) (h : n ≤ cfg1.N) (hz : n = 0) : PhiS1 V c n h = Pipeline.ΦA spec1 c := by
  subst hz; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => Spec.slotsAt (P1 V c) (s0 V c) (t.val + 1)
    | ⟨17, _⟩ => k1_pay2 (Spec.varAt (P1 V c) (s0 V c) (t.val + 1))
    | ⟨_ + 18, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_16 (c : Dev nD) (t : Fin cfg1.N) : (dat1 V c).after 16 t = Spec.slotsAt (P1 V c) (s0 V c) (t.val + 1) := by dsimp only [dat1]
theorem after1_17 (c : Dev nD) (t : Fin cfg1.N) : (dat1 V c).after 17 t = k1_pay2 (Spec.varAt (P1 V c) (s0 V c) (t.val + 1)) := by dsimp only [dat1]

/-- An input's contents before the body are those after it. -/
theorem before1 (c : Dev nD) (t : Fin cfg1.N) (w : Fin cfg1.W) (hw : w.val < 16) (d) :
    (dat1 V c).before w t d = (dat1 V c).after w t := by
  revert d hw w
  change ∀ w : Fin 18, _
  intro w
  fin_cases w <;> intro hw d <;> first
    | exact absurd hw (by decide)
    | exact (dat1 V c).before_in_eq_fetched _ rfl (fun _ => rfl) (fun _ _ _ => rfl) (fun _ => rfl) t d

theorem leaves1 (c : Dev nD) (t : Fin cfg1.N) (w : Fin cfg1.W) (hw : w.val < 16 ∨ cond1_1 (grid1.coords t)) :
    (dat1 V c).leavesExact w t = owns (c : Thread nD τ) ((cfg1.win w).stage (cfg1.slots t w)) fullShare ((dat1 V c).after w t) := by
  unfold Dat.leavesExact; rw [live1 w t hw]

theorem leaves1_idle (c : Dev nD) (t : Fin cfg1.N) (w : Fin cfg1.W) (hw : 16 ≤ w.val) (h : ¬cond1_1 (grid1.coords t)) :
    (dat1 V c).leavesExact w t = iprop(∃ d, owns (c : Thread nD τ) ((cfg1.win w).stage (cfg1.slots t w)) fullShare ((dat1 V c).before w t d)) :=
  (dat1 V c).leavesExact_idle w t (idle1 w t hw h).1 (idle1 w t hw h).2

/-- The operands, read off the input windows at any point. -/
theorem P1_eq (c : Dev nD) (t : Fin cfg1.N) : P1 V c = P ((dat1 V c).after 0 t) ((dat1 V c).after 1 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) ((dat1 V c).after 13 t) ((dat1 V c).after 14 t) ((dat1 V c).after 15 t) := by
  unfold P1 P
  simp only [Spec.Params.mk.injEq]
  exact ⟨(Arr.comp_fix _ (Arr.emb1 0 t)).symm, (Arr.comp_fix _ (Arr.emb1 1 t)).symm, (Arr.comp_fix _ (Arr.emb1 3 t)).symm, (Arr.comp_fix _ (Arr.emb1 4 t)).symm, (Arr.comp_fix _ (Arr.emb1 5 t)).symm, (Arr.comp_fix _ (Arr.emb1 6 t)).symm, (Arr.comp_fix _ (Arr.emb1 7 t)).symm, (Arr.comp_fix _ (Arr.emb1 8 t)).symm, (Arr.comp_fix _ (Arr.emb1 9 t)).symm, (Arr.comp_fix _ (Arr.emb1 10 t)).symm, (Arr.comp_fix _ (Arr.emb1 11 t)).symm, (Arr.comp_fix _ (Arr.emb1 12 t)).symm, (Arr.comp_fix _ (Arr.emb1 13 t)).symm, (Arr.comp_fix _ (Arr.emb1 14 t)).symm, (Arr.comp_fix _ (Arr.emb1 15 t)).symm⟩

theorem s0_eq (c : Dev nD) (t : Fin cfg1.N) : s0 V c = (dat1 V c).after 2 t := (Arr.comp_fix _ (Arr.emb1 2 t)).symm

theorem slotsAt_succ (p : Spec.Params F) (z : Vec F S16x256 .f32) (n : ℕ) :
    Spec.slotsAt p z (n + 1) = Spec.nextSlots p (Spec.slotsAt p z n) := rfl
theorem varAt_succ (p : Spec.Params F) (z : Vec F S16x256 .f32) (n : ℕ) :
    Spec.varAt p z (n + 1) = Spec.nextVar p (Spec.slotsAt p z n) (Spec.varAt p z n) := rfl

def bodyPre1 (c : Dev nD) (t : Fin cfg1.N) : sProp 𝕄 :=
  let Q (w : Fin cfg1.W) : sProp 𝕄 := iprop(∃ d, owns (c : Thread nD τ) ((cfg1.win w).stage (cfg1.slots t w)) fullShare ((dat1 V c).before w t d))
  iprop((dat1 V c).Φ t.castSucc ∗ (dat1 V c).owesAt () t.castSucc ∗ Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ Q 16 ∗ Q 17)

def bodyPost1 (c : Dev nD) (t : Fin cfg1.N) : sProp 𝕄 :=
  let L := (dat1 V c).leavesExact (t := t)
  iprop((dat1 V c).Φ t.succ ∗ (dat1 V c).owesAt () t.succ ∗ L 0 ∗ L 1 ∗ L 2 ∗ L 3 ∗ L 4 ∗ L 5 ∗ L 6 ∗ L 7 ∗ L 8 ∗ L 9 ∗ L 10 ∗ L 11 ∗ L 12 ∗ L 13 ∗ L 14 ∗ L 15 ∗ L 16 ∗ L 17)

set_option maxHeartbeats 4800000 in
/-- The body at any point, by the three cases of the call: the inputs come back as found, the slots and the accumulator one iteration on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp (disch := decide) only [before1 V c t, fun w hw => leaves1 V c t w (.inl hw)]
  rw [show (dat1 V c).owesAt () t.succ = (dat1 V c).owesAt () t.castSucc from rfl,
    show (dat1 V c).Φ t.succ = PhiS1 V c (t.val + 1) t.isLt from rfl, PhiS1_pos V c _ _ (Nat.succ_ne_zero _),
    show (dat1 V c).Φ t.castSucc = PhiS1 V c t.val (Nat.le_of_lt t.isLt) from rfl, slotsAt_succ, varAt_succ]
  have hN : t.val < 3 := lt_of_lt_of_eq t.isLt (show cfg1.N = 3 from N_1)
  rcases (by omega : t.val = 0 ∨ t.val = 1 ∨ t.val = 2) with hz | hz | hz <;>
    [(have hc0 : cond1_0 (grid1.coords t) := by rw [hcond1_0, hz]
      have hc1 : ¬cond1_1 (grid1.coords t) := by rw [hcond1_1, hz]; decide
      rw [leaves1_idle V c t 16 (by decide) hc1, leaves1_idle V c t 17 (by decide) hc1, PhiS1_zero V c _ _ hz, PhiA1_eq,
        show Spec.slotsAt (P1 V c) (s0 V c) t.val = k1_pay3 (s0 V c) from by rw [hz]; rfl,
        show Spec.varAt (P1 V c) (s0 V c) t.val = k1_pay4 from by rw [hz]; rfl]);
     (have hc0 : ¬cond1_0 (grid1.coords t) := by rw [hcond1_0, hz]; decide
      have hc1 : ¬cond1_1 (grid1.coords t) := by rw [hcond1_1, hz]; decide
      rw [leaves1_idle V c t 16 (by decide) hc1, leaves1_idle V c t 17 (by decide) hc1, PhiS1_pos V c _ _ (by omega)]);
     (have hc0 : ¬cond1_0 (grid1.coords t) := by rw [hcond1_0, hz]; decide
      have hc1 : cond1_1 (grid1.coords t) := by rw [hcond1_1, hz]
      rw [leaves1 V c t 16 (.inr hc1), leaves1 V c t 17 (.inr hc1), after1_16, after1_17, slotsAt_succ, varAt_succ,
        PhiS1_pos V c _ _ (by omega)])] <;>
    (rw [P1_eq V c t, s0_eq V c t]; unfold Inv1
     iintro ⟨⟨⟨⟨HS0, HS1⟩, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
     first
       | iapply (run1_A c Set.univ (grid1.coords t) hc0 hc1 _ _ _ _ _ _ _ _ _ _ _ _ _ _ _ _ _ _ _ _ _ _ _ _ _ _ _ _ _ _ _ _ _ _ _ _ _ _ _ _ _ _ _ _ _ _ _ _ _ _ _ _ _ _ _ _ _ _ _)
       | iapply (run1_B c Set.univ (grid1.coords t) hc0 hc1 _ _ _ _ _ _ _ _ _ _ _ _ _ _ _ _ _ _ _ _ _ _ _ _ _ _ _ _ _ _ _ _ _ _ _ _ _ _ _ _ _ _ _ _ _ _ _ _ _ _ _ _ _ _ _ _ _ _ _ _ _)
       | iapply (run1_C c Set.univ (grid1.coords t) hc0 hc1 _ _ _ _ _ _ _ _ _ _ _ _ _ _ _ _ _ _ _ _ _ _ _ _ _ _ _ _ _ _ _ _ _ _ _ _ _ _ _ _ _ _ _ _ _ _ _ _ _ _ _ _ _ _ _ _ _ _ _)
     iframe
     try (isplitl [H16]; (iexists _; iexact H16); isplitl [H17]; (iexists _; iexact H17))
     iintro ⟨G0, G1, G2, G3, G4, G5, G6, G7, G8, G9, G10, G11, G12, G13, G14, G15, G16, G17, GS0, GS1⟩
     iframe
     try (isplitl [G16] <;> iexists _ <;> iassumption))

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold Inv1
  iintro ⟨⟨⟨HS0, HS1⟩, R⟩, Hg⟩
  iframe
  isplitl [HS0] <;> iexists _ <;> iassumption

theorem hout1 (c : Dev nD) : (dat1 V c).Φ (Fin.last cfg1.N) ⊢ Pipeline.ΦA spec1 c :=
  Phi_out1 V c _ (by rw [Fin.val_last]; have : cfg1.N = 3 := N_1; omega)

end Region

end Cert.Kernel.R1

end
-- ==== Proof.RunB.lean ====
import proofs.«128765_j37245956390967_2_alg».proof.Proof.Gen.Kernel.Regions
import proofs.«128765_j37245956390967_2_alg».proof.Proof.R0B
import proofs.«128765_j37245956390967_2_alg».proof.Proof.R1B

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w

abbrev W4 : Dev nD → Valuation τ sig (Elt F) := fun c => StableHlo.after hostOps2 (W3 m ρ c)

theorem W2_keep (c : Dev nD) (b : Ref sig .tc) (hb : b ∉ ([main_v17_0, main_v17_1] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((R0.dat0 (V1 m ρ) c).arrAt_in w hin _).trans (R0.A_eq0 (V1 m ρ) c w))
  · unfold W2; exact Pipeline.withArrays_of_ne spec0 c _ _ b fun w e => h ⟨w, e⟩

theorem W3_keep (c : Dev nD) (b : Ref sig .tc) (hb : b ∉ ([main_v18_0, main_v18_1] : List (Ref sig .tc))) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      revert hb; revert w; decide
    exact (W3_arr m ρ c w).trans (((R1.dat1 (V2 m ρ) c).arrAt_in w hin _).trans (R1.A_eq1 (V2 m ρ) c w))
  · unfold W3; exact Pipeline.withArrays_of_ne spec1 c _ _ b fun w e => h ⟨w, e⟩

theorem W4_kept (c : Dev nD) (b : Ref sig .tc) (h0 : b ∉ (hostOps0_W : List (Ref sig .tc))) (h2 : b ∉ (hostOps2_W : List (Ref sig .tc)))
    (hr0 : b ∉ ([main_v17_0, main_v17_1] : List (Ref sig .tc))) (hr1 : b ∉ ([main_v18_0, main_v18_1] : List (Ref sig .tc))) :
    W4 m ρ c (Proc.devRef .tc b) = m ((c : Thread nD τ).loc b) :=
  (StableHlo.after_of_writes_sub hostOps2 _ hostOps2_writes h2).trans <| (W3_keep m ρ c b hr1).trans <| (W2_keep m ρ c b hr0).trans <|
    StableHlo.after_of_writes_sub hostOps0 (W0 m ρ c) hostOps0_writes h0

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev Tw (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre := Tw (W1 m ρ)
  post := Tw (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe
    iempintro
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (fun w => (W2_arr m ρ c w).symm)
      fun b hb => by unfold W2; exact Pipeline.withArrays_of_ne spec0 c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre := Tw (W2 m ρ)
  post := Tw (W3 m ρ)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine (?_ : _ ⊢ (Pipeline.ΦA spec1 c : sProp 𝕄)).trans (R1.hin1 (V2 m ρ) c)
    unfold Pipeline.ΦA
    iintro ⟨Hp, -, Hr⟩
    iframe
  hout c := by
    rw [Pipeline.ownSems0_none]
    refine (R1.hout1 (V2 m ρ) c).trans (?_ : (Pipeline.ΦA spec1 c : sProp 𝕄) ⊢ _)
    unfold Pipeline.ΦA
    iintro ⟨Hr, Hp⟩
    iframe
    iempintro
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (fun b => W3 m ρ c b) ((pdats m ρ 1 c).arrAt · cfg1.N) (fun w => (W3_arr m ρ c w).symm)
      fun b hb => by unfold W3; exact Pipeline.withArrays_of_ne spec1 c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tw (W0 m ρ)) (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

theorem W4_out0 (c : Dev nD) :
    W4 m ρ c (Proc.devRef .tc main_v18_0) = (R1.dat1 (V2 m ρ) c).arrAt 16 cfg1.N :=
  (StableHlo.after_of_writes_sub hostOps2 _ hostOps2_writes (by decide)).trans (W3_arr m ρ c 16)

end Cert.Kernel.Run

end
-- ==== Proof.SpecI.lean ====
import proofs.«128765_j37245956390967_2_alg».proof.Proof.Gen.KernelIdeal.Skeleton
import Idealize.ShloMosaic.Lib.Pipeline.FrameBody

noncomputable section

namespace Cert.KernelIdeal.Spec

open Idealize.ShloMosaic Idealize.SL.Sem Cert.KernelIdeal Cert.KernelIdeal.Gen

variable {F : FTy → Type} [FloatOps F]

/-- Keys of a block of rows: the normalised rows times the key weights. -/
def kBlock (x : Vec F S1024x768 .f32) (w b : Vec F S1x768 .f32) (wkT : Vec F S768x256 .f32) : Vec F S1024x256 .f32 :=
  k0_pay2 x w b wkT
/-- Values of the same rows. -/
def vBlock (x : Vec F S1024x768 .f32) (w b : Vec F S1x768 .f32) (wvT : Vec F S768x256 .f32) : Vec F S1024x256 .f32 :=
  k0_pay3 x w b wvT

/-- What an iteration reads besides the slots. -/
structure Params (F : FTy → Type) where
  kk : Vec F S16384x256 .f32
  vv : Vec F S16384x256 .f32
  wqT : Vec F S256x256 .f32
  lnsw : Vec F S1x256 .f32
  lnsb : Vec F S1x256 .f32
  wihT : Vec F S256x768 .f32
  whhT : Vec F S256x768 .f32
  bih : Vec F S1x768 .f32
  bhh : Vec F S1x768 .f32
  lnmw : Vec F S1x256 .f32
  lnmb : Vec F S1x256 .f32
  w1T : Vec F S256x512 .f32
  b1 : Vec F S1x512 .f32
  w2T : Vec F S512x256 .f32
  b2 : Vec F S1x256 .f32

variable (p : Params F)

/-- Rows `512·k … 512·k + 511`. -/
def chunkRect (k : Fin k1_t1_loop.trips) : Rect S16384x256 :=
  Rect.unit (s := S16384x256) (k1_off1 k) S512x256.size (k1_off1_inb k)

def query (s : Vec F S16x256 .f32) : FVec F S16x256 .f32 := k1_pay5 s p.lnsw p.lnsb p.wqT

abbrev Acc (F : FTy → Type) := FVec F S1x16 .f32 × FVec F S1x16 .f32 × FVec F S16x256 .f32

/-- One block of 512 rows folded into the three running sums. -/
def chunkStep (s : Vec F S16x256 .f32) (kc vc : Vec F S512x256 .f32) (a : Acc F) : Acc F :=
  (k1_pay10 (query p s) a.1 kc, k1_pay11 (query p s) a.2.1 kc, k1_pay12 (query p s) a.2.2 kc vc)

/-- The running sums before block `n`, from zero. -/
def accBefore (s : Vec F S16x256 .f32) : ℕ → Acc F
  | 0 => (k1_pay6, k1_pay7, k1_pay8)
  | n + 1 => if h : n < k1_t1_loop.trips then
      chunkStep p s (View.ld p.kk (chunkRect ⟨n, h⟩)) (View.ld p.vv (chunkRect ⟨n, h⟩)) (accBefore s n)
    else accBefore s n

def accAll (s : Vec F S16x256 .f32) : Acc F := accBefore p s k1_t1_loop.trips

def gru (s : Vec F S16x256 .f32) : FVec F S16x256 .f32 :=
  k1_pay13 s (accAll p s).1 (accAll p s).2.2 p.wihT p.bih p.whhT p.bhh

def nextSlots (s : Vec F S16x256 .f32) : FVec F S16x256 .f32 :=
  k1_pay16 (gru p s)
    (k1_pay14 s (accAll p s).1 (accAll p s).2.2 p.wihT p.bih p.whhT p.bhh)
    (k1_pay15 s (accAll p s).1 (accAll p s).2.2 p.wihT p.bih p.whhT p.bhh)
    p.lnmw p.lnmb p.w1T p.b1 p.w2T p.b2

def nextVar (s : Vec F S16x256 .f32) (acc : Vec F S1x1 .f32) : FVec F S1x1 .f32 :=
  k1_pay1 (accAll p s).1 (accAll p s).2.1 acc

/-- The slots before iteration `n`. -/
def slotsAt (s0 : Vec F S16x256 .f32) : ℕ → Vec F S16x256 .f32
  | 0 => k1_pay3 s0
  | n + 1 => nextSlots p (slotsAt s0 n)

/-- The variance sum before iteration `n`. -/
def varAt (s0 : Vec F S16x256 .f32) : ℕ → Vec F S1x1 .f32
  | 0 => k1_pay4
  | n + 1 => nextVar p (slotsAt p s0 n) (varAt s0 n)

def outSlots (s0 : Vec F S16x256 .f32) : Vec F S16x256 .f32 := slotsAt p s0 3
def outVar (s0 : Vec F S16x256 .f32) : Vec F S1x1 .f32 := k1_pay2 (varAt p s0 3)

end Cert.KernelIdeal.Spec

end
-- ==== Proof.R0I.lean ====
import proofs.«128765_j37245956390967_2_alg».proof.Proof.Gen.KernelIdeal.Launch
import proofs.«128765_j37245956390967_2_alg».proof.Proof.Gen.KernelIdeal.Skeleton
import proofs.«128765_j37245956390967_2_alg».proof.Proof.Gen.KernelIdeal.Points
import proofs.«128765_j37245956390967_2_alg».proof.Proof.SpecI
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => Cert.KernelIdeal.Spec.kBlock (iblk0 V c 0 t) (iblk0 V c 1 t) (iblk0 V c 2 t) (iblk0 V c 3 t)
    | ⟨6, _⟩ => Cert.KernelIdeal.Spec.vBlock (iblk0 V c 0 t) (iblk0 V c 1 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t = Cert.KernelIdeal.Spec.kBlock (iblk0 V c 0 t) (iblk0 V c 1 t) (iblk0 V c 2 t) (iblk0 V c 3 t) := by dsimp only [dat0]
theorem after0_6 (c : Dev nD) (t : Fin cfg0.N) : (dat0 V c).after 6 t = Cert.KernelIdeal.Spec.vBlock (iblk0 V c 0 t) (iblk0 V c 1 t) (iblk0 V c 2 t) (iblk0 V c 4 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) ∧ ∀ d, (dat0 V c).before 4 t d = iblk0 V c 4 t := by
  refine ⟨?_, ?_, ?_, ?_, ?_⟩ <;> exact fun d =>
    ((dat0 V c).before_in_eq_fetched _ rfl (fun _ => rfl) (fun _ _ _ => rfl)
      (fun t => by unfold Dat.blockOf; dsimp only [dat0, iblk0]; try rfl) t d).trans
      (by unfold Dat.fetched Dat.blockOf iblk0; rw [A_eq0]; try rfl)

set_option maxHeartbeats 4000000 in
theorem body_obligation0 (c : Dev nD) : BodyObligation (dat0 (F := F) V c) (defs₀ (F := F)) Variants.none () Set.univ := fun t => by
  have hz : (![0, 0] : Fin 2 → Nat) = fun _ => 0 := by funext a; fin_cases a <;> rfl
  rw [bigSep_W0, bigSep_W0]
  simp only [before0 V c t]
  rw [show (dat0 V c).Φ t.succ = (dat0 V c).Φ t.castSucc from rfl,
    show (dat0 V c).owesAt () t.succ = (dat0 V c).owesAt () t.castSucc from rfl]
  dsimp only [dat0]
  generalize iblk0 V c 0 t = x0; generalize iblk0 V c 1 t = x1; generalize iblk0 V c 2 t = x2
  generalize iblk0 V c 3 t = x3; generalize iblk0 V c 4 t = x4
  sl_whnfR [defs₀, Defs.onTc]
  simp only [cc0__qkv_kernel_eq_skeleton]; unfold cc0__qkv_kernel_skel
  simp only [k0_part1_eq_skeleton]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩⟩
  subst hf0 hf1 hf2 hf3 hf4
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5] <;> (
    iexists _; isplitr
    swap; · first | iexact H5 | iexact H6
    ipureintro
    try sl_unfold_run_names
    refine (View.read_writes_eq_canon _ _ _ (fun y => ⟨_, List.mem_singleton_self _, View.mem_set_unit_zero hz inb_S1024x256_S1024x256_0_0 y⟩)).trans
      ((View.canon_unit_zero hz _ _).trans ?_)
    first | unfold Spec.kBlock | unfold Spec.vBlock
    congr 1 <;> exact (View.readAt_eq_ld _ _ _).trans (View.ld_unit_zero hz _ _))

end Cert.KernelIdeal.R0

end
-- ==== Proof.ArrI.lean ====
import proofs.«128765_j37245956390967_2_alg».proof.Proof.Gen.KernelIdeal.Launch
import proofs.«128765_j37245956390967_2_alg».proof.Proof.Gen.KernelIdeal.Points
import proofs.«128765_j37245956390967_2_alg».proof.Proof.SpecI
import Idealize.ShloMosaic.Lib.Pipeline.Value
import Idealize.ShloMosaic.Lib.ValueIdx

noncomputable section

namespace Cert.KernelIdeal.Arr

open Idealize.ShloMosaic Idealize.ShloMosaic.TcCoe Idealize.ShloMosaic.ValueIdx
open Idealize.ShloMosaic.Pipeline (Dat)
open Cert.KernelIdeal Cert.KernelIdeal.Gen

variable {F : FTy → Type} [FloatOps F]

/-- Precomposition with a map that moves no coordinate changes nothing. -/
theorem comp_fix {s : Shape} {α : Type} (Y : s.Idx → α) {e : s.Idx → s.Idx} (h : ∀ j a, (e j a : ℕ) = j a) :
    (fun j => Y (e j)) = Y :=
  funext fun j => congrArg Y (funext fun a => Fin.ext (h j a))

theorem pt0_lt (t : Fin cfg0.N) : t.val < 16 := Nat.lt_of_lt_of_eq t.isLt N_0

theorem row_lt (t : Fin 16) (y : S1024x768.Idx) : 1024 * t.val + (y 0).val < 16384 := by
  have := idx2_lt0 y; have := t.isLt; omega

def rows (X : Vec F S16384x768 .f32) (t : Fin 16) : Vec F S1024x768 .f32 :=
  fun y => X (ix2 ⟨1024 * t.val + (y 0).val, row_lt t y⟩ (y 1))

theorem blockOf_lt (i : S16384x256.Idx) : (i 0).val / 1024 < 16 := by
  have := idx2_lt0 i; omega

theorem inBlock_lt (i : S16384x256.Idx) : (i 0).val % 1024 < 1024 := Nat.mod_lt _ (by norm_num)

def kArr (X : Vec F S16384x768 .f32) (w b : Vec F S1x768 .f32) (wkT : Vec F S768x256 .f32) : Vec F S16384x256 .f32 :=
  fun i => Spec.kBlock (rows X ⟨(i 0).val / 1024, blockOf_lt i⟩) w b wkT (ix2 ⟨(i 0).val % 1024, inBlock_lt i⟩ (i 1))

def vArr (X : Vec F S16384x768 .f32) (w b : Vec F S1x768 .f32) (wvT : Vec F S768x256 .f32) : Vec F S16384x256 .f32 :=
  fun i => Spec.vBlock (rows X ⟨(i 0).val / 1024, blockOf_lt i⟩) w b wvT (ix2 ⟨(i 0).val % 1024, inBlock_lt i⟩ (i 1))

theorem idx0z : ∀ (w : Fin 7), 0 < w.val ∧ w.val < 5 → ∀ (t : Fin grid0.N) (a : Fin (win0 w).shape.rank),
    (win0 w).index t a = 0 := by decide +kernel

theorem idx0r : ∀ (w : Fin 7), w.val = 0 ∨ 5 ≤ w.val → ∀ (t : Fin grid0.N) (a : Fin (win0 w).shape.rank),
    (win0 w).index t a = if a.val = 0 then t.val else 0 := by decide +kernel

theorem emb0 (w : Fin 7) (hw : 0 < w.val ∧ w.val < 5) (t : Fin grid0.N) (j : ((win0 w).xblock (grid0.coords t)).Idx)
    (a : Fin (win0 w).shape.rank) : (((win0 w).rect t).emb j a : ℕ) = j a :=
  (win0 w).rect_emb_val_of_index_zero t a (idx0z w hw t a) j

/-- Where an element of the `k`-th block of 1024 rows sits in the array. -/
theorem row_emb {n : ℕ} {e : (⟨2, ![1024, n]⟩ : Shape).Idx → (⟨2, ![16384, n]⟩ : Shape).Idx} {idx : Fin 2 → ℕ} {k : ℕ}
    (he : ∀ j a, (e j a : ℕ) = idx a * ![1024, n] a + j a) (hi : ∀ a, idx a = if a.val = 0 then k else 0)
    (j : (⟨2, ![1024, n]⟩ : Shape).Idx) : (e j 0).val = 1024 * k + (j 0).val ∧ (e j 1).val = (j 1).val :=
  ⟨by rw [he, hi]; show k * 1024 + _ = _; omega, by rw [he, hi]; show 0 * n + _ = _; omega⟩

theorem blk0_0 (X : Vec F S16384x768 .f32) (t : Fin cfg0.N) :
    (((cfg0.win 0).blk t).view.read (Elt F) X : Vec F S1024x768 .f32) = rows X ⟨t.val, pt0_lt t⟩ := by
  funext j
  obtain ⟨h0, h1⟩ := row_emb (win0_0.rect_emb_val t) (idx0r 0 (by decide) t) j
  refine congrArg X (funext fun a => Fin.ext ?_)
  match a with
  | ⟨0, _⟩ => exact h0
  | ⟨1, _⟩ => exact h1

theorem blk0_1 (Y : Vec F S1x768 .f32) (t : Fin cfg0.N) :
    (((cfg0.win 1).blk t).view.read (Elt F) Y : Vec F S1x768 .f32) = Y := comp_fix Y (emb0 1 (by decide) t)

theorem blk0_2 (Y : Vec F S1x768 .f32) (t : Fin cfg0.N) :
    (((cfg0.win 2).blk t).view.read (Elt F) Y : Vec F S1x768 .f32) = Y := comp_fix Y (emb0 2 (by decide) t)

theorem blk0_3 (Y : Vec F S768x256 .f32) (t : Fin cfg0.N) :
    (((cfg0.win 3).blk t).view.read (Elt F) Y : Vec F S768x256 .f32) = Y := comp_fix Y (emb0 3 (by decide) t)

theorem blk0_4 (Y : Vec F S768x256 .f32) (t : Fin cfg0.N) :
    (((cfg0.win 4).blk t).view.read (Elt F) Y : Vec F S768x256 .f32) = Y := comp_fix Y (emb0 4 (by decide) t)

/-- Row `1024·r + y₀` of an array built from sixteen blocks is row `y₀` of block `r`. -/
theorem at_block {α : Type} (B : Fin 16 → S1024x256.Idx → α) (r : Fin 16) (y : S1024x256.Idx) (i : S16384x256.Idx)
    (h0 : (i 0).val = 1024 * r.val + (y 0).val) (h1 : (i 1).val = (y 1).val) :
    B ⟨(i 0).val / 1024, blockOf_lt i⟩ (ix2 ⟨(i 0).val % 1024, inBlock_lt i⟩ (i 1)) = B r y := by
  have := idx2_lt0 y
  refine congrArg₂ B (Fin.ext (by show (i 0).val / 1024 = r.val; omega)) (funext fun a => Fin.ext ?_)
  match a with
  | ⟨0, _⟩ => show (i 0).val % 1024 = (y 0).val; omega
  | ⟨1, _⟩ => exact h1

theorem kArr_at (X : Vec F S16384x768 .f32) (w b : Vec F S1x768 .f32) (wkT : Vec F S768x256 .f32)
    (r : Fin 16) (y : S1024x256.Idx) (i : S16384x256.Idx)
    (h0 : (i 0).val = 1024 * r.val + (y 0).val) (h1 : (i 1).val = (y 1).val) :
    kArr X w b wkT i = Spec.kBlock (rows X r) w b wkT y :=
  at_block (fun r => Spec.kBlock (rows X r) w b wkT) r y i h0 h1

theorem vArr_at (X : Vec F S16384x768 .f32) (w b : Vec F S1x768 .f32) (wvT : Vec F S768x256 .f32)
    (r : Fin 16) (y : S1024x256.Idx) (i : S16384x256.Idx)
    (h0 : (i 0).val = 1024 * r.val + (y 0).val) (h1 : (i 1).val = (y 1).val) :
    vArr X w b wvT i = Spec.vBlock (rows X r) w b wvT y :=
  at_block (fun r => Spec.vBlock (rows X r) w b wvT) r y i h0 h1

/-- The sixteen row blocks cover the array. -/
theorem cover0 {e : Fin cfg0.N → S1024x256.Idx → S16384x256.Idx}
    (he : ∀ t j, (e t j 0).val = 1024 * t.val + (j 0).val ∧ (e t j 1).val = (j 1).val) (i : S16384x256.Idx) :
    ∃ t j, e t j = i := by
  refine ⟨⟨_, Nat.lt_of_lt_of_eq (blockOf_lt i) N_0.symm⟩, ix2 ⟨_, inBlock_lt i⟩ (i 1), funext fun a => Fin.ext ?_⟩
  match a with
  | ⟨0, _⟩ => exact (he _ _).1.trans (Nat.div_add_mod _ _)
  | ⟨1, _⟩ => exact (he _ _).2

theorem arr0_5 {c : Dev nD} (dat : Dat τ (Elt F) Unit ℕ (UR sig nD τ) ℕ cfg0 c)
    (X : Vec F S16384x768 .f32) (w b : Vec F S1x768 .f32) (wkT : Vec F S768x256 .f32)
    (h5 : ∀ t : Fin cfg0.N, (dat.after 5 t : Vec F S1024x256 .f32) = Spec.kBlock (rows X ⟨t.val, pt0_lt t⟩) w b wkT) :
    (dat.arrAt 5 cfg0.N : Vec F S16384x256 .f32) = kArr X w b wkT := by
  have he := fun t => row_emb (win0_5.rect_emb_val t) (idx0r 5 (by decide) t)
  refine dat.arrAt_eq_of_cover 5 (kArr X w b wkT) (fun t _ => ?_) fun i => ?_
  · exact (h5 t).trans (funext fun j => (kArr_at X w b wkT ⟨t.val, pt0_lt t⟩ j _ (he t j).1 (he t j).2).symm)
  · obtain ⟨t, j, e⟩ := cover0 he i
    exact ⟨t, flush0_5 t, Finset.mem_map.mpr ⟨j, Finset.mem_univ _, e⟩⟩

theorem arr0_6 {c : Dev nD} (dat : Dat τ (Elt F) Unit ℕ (UR sig nD τ) ℕ cfg0 c)
    (X : Vec F S16384x768 .f32) (w b : Vec F S1x768 .f32) (wvT : Vec F S768x256 .f32)
    (h6 : ∀ t : Fin cfg0.N, (dat.after 6 t : Vec F S1024x256 .f32) = Spec.vBlock (rows X ⟨t.val, pt0_lt t⟩) w b wvT) :
    (dat.arrAt 6 cfg0.N : Vec F S16384x256 .f32) = vArr X w b wvT := by
  have he := fun t => row_emb (win0_6.rect_emb_val t) (idx0r 6 (by decide) t)
  refine dat.arrAt_eq_of_cover 6 (vArr X w b wvT) (fun t _ => ?_) fun i => ?_
  · exact (h6 t).trans (funext fun j => (vArr_at X w b wvT ⟨t.val, pt0_lt t⟩ j _ (he t j).1 (he t j).2).symm)
  · obtain ⟨t, j, e⟩ := cover0 he i
    exact ⟨t, flush0_6 t, Finset.mem_map.mpr ⟨j, Finset.mem_univ _, e⟩⟩

theorem last1_lt : 2 < cfg1.N := by rw [show cfg1.N = 3 from N_1]; decide

theorem idx1 : ∀ (w : Fin 18) (t : Fin grid1.N) (a : Fin (win1 w).shape.rank), (win1 w).index t a = 0 := by
  decide +kernel

theorem emb1 (w : Fin 18) (t : Fin grid1.N) (j : ((win1 w).xblock (grid1.coords t)).Idx) (a : Fin (win1 w).shape.rank) :
    (((win1 w).rect t).emb j a : ℕ) = j a :=
  (win1 w).rect_emb_val_of_index_zero t a (idx1 w t a) j

theorem eq_last1 (t : Fin cfg1.N) (h : t.val % 3 = 2) : t = ⟨2, last1_lt⟩ :=
  Fin.ext (by have h3 : t.val < 3 := Nat.lt_of_lt_of_eq t.isLt N_1; show t.val = 2; omega)

/-- A set that holds every image of a map moving no coordinate holds everything. -/
theorem mem_of_fix {s : Shape} {S : Finset s.Idx} {e : s.Idx → s.Idx} (h : ∀ j a, (e j a : ℕ) = j a) (hm : ∀ j, e j ∈ S)
    (i : s.Idx) : i ∈ S :=
  (funext fun a => Fin.ext (h i a) : e i = i) ▸ hm i

theorem arr1_16 {c : Dev nD} (dat : Dat τ (Elt F) Unit ℕ (UR sig nD τ) ℕ cfg1 c) (Y : Vec F S16x256 .f32)
    (h : (dat.after 16 ⟨2, last1_lt⟩ : Vec F S16x256 .f32) = Y) :
    (dat.arrAt 16 cfg1.N : Vec F S16x256 .f32) = Y := by
  refine dat.arrAt_eq_of_cover 16 Y (fun t hf => ?_) fun i =>
    ⟨⟨2, last1_lt⟩, (flush1_16 _).mpr rfl, mem_of_fix (emb1 16 _) (View.emb_mem_set _) i⟩
  obtain rfl := eq_last1 t ((flush1_16 t).mp hf)
  exact h.trans (comp_fix Y (emb1 16 _)).symm

theorem arr1_17 {c : Dev nD} (dat : Dat τ (Elt F) Unit ℕ (UR sig nD τ) ℕ cfg1 c) (Y : Vec F S1x1 .f32)
    (h : (dat.after 17 ⟨2, last1_lt⟩ : Vec F S1x1 .f32) = Y) :
    (dat.arrAt 17 cfg1.N : Vec F S1x1 .f32) = Y := by
  refine dat.arrAt_eq_of_cover 17 Y (fun t hf => ?_) fun i =>
    ⟨⟨2, last1_lt⟩, (flush1_17 _).mpr rfl, mem_of_fix (emb1 17 _) (View.emb_mem_set _) i⟩
  obtain rfl := eq_last1 t ((flush1_17 t).mp hf)
  exact h.trans (comp_fix Y (emb1 17 _)).symm

end Cert.KernelIdeal.Arr

end
-- ==== Proof.R1LoopI.lean ====
import proofs.«128765_j37245956390967_2_alg».proof.Proof.Gen.KernelIdeal.Loops
import proofs.«128765_j37245956390967_2_alg».proof.Proof.SpecI
import Idealize.ShloMosaic.Lib.Pipeline.Value
import Idealize.ShloMosaic.Lib.Pipeline.TableIdle

noncomputable section

namespace Cert.KernelIdeal.R1

open Idealize.ShloMosaic Idealize.ShloMosaic.TcCoe
open Idealize.SL Idealize.SL.RA Idealize.SL.BI Idealize.SL.BI.BIBase
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

theorem hz2 : (![0, 0] : Fin 2 → Nat) = fun _ => 0 := funext fun a => by fin_cases a <;> rfl

section
variable {c : Dev nD} {sp sh e} {m : Memref sig .tc sp sh e} (h : m.IsWhole) {q : PosShare TreeShare} {X : sh.Idx → Elt F e}

-- Reading is a bijection here, so what is read fixes the contents.
theorem owns_unread : (owns (c : Thread nD τ) m q X : sProp 𝕄) = (m.view.loc (c : Thread nD τ) ↦[m.view.set]{q} h.unread X) := by
  rw [owns_eq_rep, h.eq_unread (View.read_rep _ X)]

theorem held_of_read {f} (hf : m.view.read (Elt F) f = X) :
    (m.view.loc (c : Thread nD τ) ↦[m.view.set]{q} f : sProp 𝕄) ⊢ (m.view.loc (c : Thread nD τ) ↦[m.view.set]{q} h.unread X) :=
  Entails.of_eq (by rw [h.eq_unread hf])
end

-- The last write covers every index, so what is read back is its payload.
theorem read_store0 {κ sp S e} (v : View sig κ sp S e) (f) {off : Fin S.rank → ℕ} (h : off = fun _ => 0) (inb) (w : S.Idx → Elt F e) (L) :
    v.read (Elt F) (v.writes (Elt F) f ((⟨Rect.unit off S.size inb, w⟩ : View.Piece (Elt F) S e) :: L)) = w :=
  (View.read_writes_eq_canon v f _ fun y => ⟨_, List.Mem.head _, View.mem_set_unit_zero h inb y⟩).trans (View.canon_cons_unit_zero h inb w L)

section
variable {a b : ℕ} {e : EltTy} (inb : ∀ j, (![0, 0] : Fin 2 → ℕ) j + ![a, b] j ≤ ![a, b] j) (w : (⟨2, ![a, b]⟩ : Shape).Idx → Elt F e)

theorem ld0 : View.ld w (Rect.unit (s := ⟨2, ![a, b]⟩) ![0, 0] ![a, b] inb) = w :=
  View.ld_unit_zero (S := ⟨2, ![a, b]⟩) hz2 inb w

theorem rc0 {κ sp} (v : View sig κ sp ⟨2, ![a, b]⟩ e) :
    v.readCov [(⟨Rect.unit (s := ⟨2, ![a, b]⟩) ![0, 0] ![a, b] inb, w⟩ : View.Piece (Elt F) ⟨2, ![a, b]⟩ e)] (Rect.unit (s := ⟨2, ![a, b]⟩) ![0, 0] ![a, b] inb).toLoadRect = w :=
  View.readCov_unit_zero (S := ⟨2, ![a, b]⟩) v hz2 inb w
end

variable (x1 x2 : Vec F S16384x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (s : Vec F S16x256 .f32)

abbrev P : Spec.Params F :=
  ⟨x1, x2, x4, x5, x6, x7, x8, x9, x10, x11, x12, x13, x14, x15, x16⟩

-- The next slots and the next variance term, over any value equal to the fold over all the chunks.
theorem slots_eq {t : Spec.Acc F} (ht : t = Spec.accAll (P x1 x2 x4 x5 x6 x7 x8 x9 x10 x11 x12 x13 x14 x15 x16) s) :
    k1_pay16 (k1_pay13 s t.1 t.2.2 x7 x9 x8 x10) (k1_pay14 s t.1 t.2.2 x7 x9 x8 x10) (k1_pay15 s t.1 t.2.2 x7 x9 x8 x10) x11 x12 x13 x14 x15 x16
      = Spec.nextSlots (P x1 x2 x4 x5 x6 x7 x8 x9 x10 x11 x12 x13 x14 x15 x16) s := ht ▸ rfl

theorem var_eq (a : Vec F S1x1 .f32) {t : Spec.Acc F} (ht : t = Spec.accAll (P x1 x2 x4 x5 x6 x7 x8 x9 x10 x11 x12 x13 x14 x15 x16) s) :
    k1_pay1 t.1 t.2.1 a = Spec.nextVar (P x1 x2 x4 x5 x6 x7 x8 x9 x10 x11 x12 x13 x14 x15 x16) s a := ht ▸ rfl

variable (c : Dev nD) (i : grid1.Coords) (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
  (v3 : Vec F S16x256 .f32) (v35 v36 : FVec F S1x16 .f32) (v37 : FVec F S16x256 .f32)

-- Induction on the trips: each adds its chunk's terms, so the carried value is the fold over the chunks so far.
theorem st_eq (n : ℕ) : st_k1_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v3 (k1_pay5 s x5 x6 x4) v35 v36 v37 (harg1.unread x1) (harg2.unread x2) (k1_pay6 (F := F), k1_pay7 (F := F), k1_pay8 (F := F)) n = Spec.accBefore (P x1 x2 x4 x5 x6 x7 x8 x9 x10 x11 x12 x13 x14 x15 x16) s n := by
  induction n with
  | zero => rfl
  | succ n ih =>
    rw [st_k1_t1.eq_2, ih, Spec.accBefore.eq_2]; unfold st_k1_t1Step tripR_k1_t1 trip_k1_t1
    simp only [Spec.chunkStep, Spec.query, Spec.chunkRect, View.readAt_eq_ld, Memref.IsWhole.read_unread]

end Cert.KernelIdeal.R1

end
-- ==== Proof.R1CaseAI.lean ====
import proofs.«128765_j37245956390967_2_alg».proof.Proof.R1LoopI

namespace Cert.KernelIdeal.R1

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem run1_A (c : Dev nD) (E : Set ℕ) (i : grid1.Coords) (hc0 : cond1_0 i) (hc1 : ¬cond1_1 i)
    (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
    (x1 x2 : Vec F S16384x256 .f32) (x3 : Vec F S16x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (xo17 : Vec F S16x256 .f32) (xo18 : Vec F S1x1 .f32) (K : PUnit → sProp 𝕄) :
    iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
        ∗ owns c arg17 fullShare xo17 ∗ owns c arg18 fullShare xo18 ∗ (∃ d, owns c arg19 fullShare d) ∗ (∃ d, owns c arg20 fullShare d)
        ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
            ∗ owns c arg17 fullShare xo17 ∗ owns c arg18 fullShare xo18 ∗ owns c arg19 fullShare (Spec.nextSlots (P x1 x2 x4 x5 x6 x7 x8 x9 x10 x11 x12 x13 x14 x15 x16) (k1_pay3 x3)) ∗ owns c arg20 fullShare (Spec.nextVar (P x1 x2 x4 x5 x6 x7 x8 x9 x10 x11 x12 x13 x14 x15 x16) (k1_pay3 x3) (k1_pay4 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_kernel_eq_skeleton, owns_unread, *]; unfold cc1_kernel_skel
  iintro ⟨H1, H2, H3, H4, H5, H6, H7, H8, H9, H10, H11, H12, H13, H14, H15, H16, H17, H18, ⟨%d19, H19⟩, ⟨%d20, H20⟩, Hk⟩
  sl_exec (disch := assumption)
  sl_step
  iapply Hk
  iframe H1 H2 H3 H4 H5 H6 H7 H8 H9 H10 H11 H12 H13 H14 H15 H16 H17 H18
  istop
  refine BI.sep_mono (held_of_read _ ?_) (held_of_read _ ?_)
  all_goals (sl_unfold_words; rw [read_store0 _ _ hz2]; simp only [View.readAt_eq_ld, Memref.IsWhole.read_unread, ld0, rc0])
  exacts [slots_eq (ht := st_eq ..) .., var_eq (ht := st_eq ..) ..]

end Cert.KernelIdeal.R1
-- ==== Proof.R1CaseBI.lean ====
import proofs.«128765_j37245956390967_2_alg».proof.Proof.R1LoopI

namespace Cert.KernelIdeal.R1

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem run1_B (c : Dev nD) (E : Set ℕ) (i : grid1.Coords) (hc0 : ¬cond1_0 i) (hc1 : ¬cond1_1 i)
    (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
    (x1 x2 : Vec F S16384x256 .f32) (x3 : Vec F S16x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (xo17 : Vec F S16x256 .f32) (xo18 : Vec F S1x1 .f32) (s : Vec F S16x256 .f32) (a : Vec F S1x1 .f32) (K : PUnit → sProp 𝕄) :
    iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
        ∗ owns c arg17 fullShare xo17 ∗ owns c arg18 fullShare xo18 ∗ owns c arg19 fullShare s ∗ owns c arg20 fullShare a
        ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
            ∗ owns c arg17 fullShare xo17 ∗ owns c arg18 fullShare xo18 ∗ owns c arg19 fullShare (Spec.nextSlots (P x1 x2 x4 x5 x6 x7 x8 x9 x10 x11 x12 x13 x14 x15 x16) s) ∗ owns c arg20 fullShare (Spec.nextVar (P x1 x2 x4 x5 x6 x7 x8 x9 x10 x11 x12 x13 x14 x15 x16) s a)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_kernel_eq_skeleton, owns_unread, *]; unfold cc1_kernel_skel
  iintro ⟨H1, H2, H3, H4, H5, H6, H7, H8, H9, H10, H11, H12, H13, H14, H15, H16, H17, H18, H19, H20, Hk⟩
  sl_exec (disch := assumption)
  sl_step
  iapply Hk
  iframe H1 H2 H3 H4 H5 H6 H7 H8 H9 H10 H11 H12 H13 H14 H15 H16 H17 H18
  istop
  refine BI.sep_mono (held_of_read _ ?_) (held_of_read _ ?_)
  all_goals (sl_unfold_words; rw [read_store0 _ _ hz2]; simp only [View.readAt_eq_ld, Memref.IsWhole.read_unread, ld0, rc0])
  exacts [slots_eq (ht := st_eq ..) .., var_eq (ht := st_eq ..) ..]

end Cert.KernelIdeal.R1
-- ==== Proof.R1CaseCI.lean ====
import proofs.«128765_j37245956390967_2_alg».proof.Proof.R1LoopI

namespace Cert.KernelIdeal.R1

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem run1_C (c : Dev nD) (E : Set ℕ) (i : grid1.Coords) (hc0 : ¬cond1_0 i) (hc1 : cond1_1 i)
    (arg1 : Memref sig .tc .vmem S16384x256 .f32) (harg1 : arg1.IsWhole) (arg2 : Memref sig .tc .vmem S16384x256 .f32) (harg2 : arg2.IsWhole) (arg3 : Memref sig .tc .vmem S16x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x768 .f32) (harg7 : arg7.IsWhole) (arg8 : Memref sig .tc .vmem S256x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S16x256 .f32) (harg17 : arg17.IsWhole) (arg18 : Memref sig .tc .vmem S1x1 .f32) (harg18 : arg18.IsWhole) (arg19 : Memref sig .tc .vmem S16x256 .f32) (harg19 : arg19.IsWhole) (arg20 : Memref sig .tc .vmem S1x1 .f32) (harg20 : arg20.IsWhole)
    (x1 x2 : Vec F S16384x256 .f32) (x3 : Vec F S16x256 .f32) (x4 : Vec F S256x256 .f32) (x5 x6 : Vec F S1x256 .f32) (x7 x8 : Vec F S256x768 .f32) (x9 x10 : Vec F S1x768 .f32) (x11 x12 : Vec F S1x256 .f32) (x13 : Vec F S256x512 .f32) (x14 : Vec F S1x512 .f32) (x15 : Vec F S512x256 .f32) (x16 : Vec F S1x256 .f32) (s : Vec F S16x256 .f32) (a : Vec F S1x1 .f32) (K : PUnit → sProp 𝕄) :
    iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
        ∗ (∃ d, owns c arg17 fullShare d) ∗ (∃ d, owns c arg18 fullShare d) ∗ owns c arg19 fullShare s ∗ owns c arg20 fullShare a
        ∗ (iprop(owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9 ∗ owns c arg10 fullShare x10 ∗ owns c arg11 fullShare x11 ∗ owns c arg12 fullShare x12 ∗ owns c arg13 fullShare x13 ∗ owns c arg14 fullShare x14 ∗ owns c arg15 fullShare x15 ∗ owns c arg16 fullShare x16
            ∗ owns c arg17 fullShare (Spec.nextSlots (P x1 x2 x4 x5 x6 x7 x8 x9 x10 x11 x12 x13 x14 x15 x16) s) ∗ owns c arg18 fullShare (k1_pay2 (Spec.nextVar (P x1 x2 x4 x5 x6 x7 x8 x9 x10 x11 x12 x13 x14 x15 x16) s a)) ∗ owns c arg19 fullShare (Spec.nextSlots (P x1 x2 x4 x5 x6 x7 x8 x9 x10 x11 x12 x13 x14 x15 x16) s) ∗ owns c arg20 fullShare (Spec.nextVar (P x1 x2 x4 x5 x6 x7 x8 x9 x10 x11 x12 x13 x14 x15 x16) s a)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1_kernel_eq_skeleton, owns_unread, *]; unfold cc1_kernel_skel
  iintro ⟨H1, H2, H3, H4, H5, H6, H7, H8, H9, H10, H11, H12, H13, H14, H15, H16, ⟨%d17, H17⟩, ⟨%d18, H18⟩, H19, H20, Hk⟩
  sl_exec (disch := assumption)
  sl_step
  iapply Hk
  iframe H1 H2 H3 H4 H5 H6 H7 H8 H9 H10 H11 H12 H13 H14 H15 H16
  isplitl [H17]; rotate_left; isplitl [H18]; rotate_left; isplitl [H19]
  all_goals (istop; refine held_of_read _ ?_)
  all_goals (sl_unfold_words; rw [read_store0 _ _ hz2]; simp only [View.readAt_eq_ld, Memref.IsWhole.read_unread, ld0, rc0])
  exacts [slots_eq (ht := st_eq ..) .., var_eq (ht := st_eq ..) .., slots_eq (ht := st_eq ..) .., congrArg _ (var_eq (ht := st_eq ..) ..)]

end Cert.KernelIdeal.R1
-- ==== Proof.R1RunI.lean ====
import proofs.«128765_j37245956390967_2_alg».proof.Proof.R1CaseAI
import proofs.«128765_j37245956390967_2_alg».proof.Proof.R1CaseBI
import proofs.«128765_j37245956390967_2_alg».proof.Proof.R1CaseCI
-- ==== Proof.R1I.lean ====
import proofs.«128765_j37245956390967_2_alg».proof.Proof.ArrI
import proofs.«128765_j37245956390967_2_alg».proof.Proof.R1RunI
import Idealize.ShloMosaic.Lib.Pipeline.RegionsLoop

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def P1 (c : Dev nD) : Spec.Params F :=
  ⟨V c (Pipeline.arrRef spec1 0), V c (Pipeline.arrRef spec1 1), V c (Pipeline.arrRef spec1 3), V c (Pipeline.arrRef spec1 4), V c (Pipeline.arrRef spec1 5), V c (Pipeline.arrRef spec1 6), V c (Pipeline.arrRef spec1 7), V c (Pipeline.arrRef spec1 8), V c (Pipeline.arrRef spec1 9), V c (Pipeline.arrRef spec1 10), V c (Pipeline.arrRef spec1 11), V c (Pipeline.arrRef spec1 12), V c (Pipeline.arrRef spec1 13), V c (Pipeline.arrRef spec1 14), V c (Pipeline.arrRef spec1 15)⟩
def s0 (c : Dev nD) : Vec F S16x256 .f32 := V c (Pipeline.arrRef spec1 2)

theorem hcond1_0 : ∀ t : Fin cfg1.N, cond1_0 (grid1.coords t) ↔ t.val % 3 = 0 :=
  (by decide +kernel : ∀ t : Fin grid1.N, cond1_0 (grid1.coords t) ↔ t.val % 3 = 0)
theorem hcond1_1 : ∀ t : Fin cfg1.N, cond1_1 (grid1.coords t) ↔ t.val % 3 = 2 :=
  (by decide +kernel : ∀ t : Fin grid1.N, cond1_1 (grid1.coords t) ↔ t.val % 3 = 2)

theorem live1 : ∀ (w : Fin cfg1.W) (t : Fin cfg1.N), w.val < 16 ∨ cond1_1 (grid1.coords t) → cfg1.idle w (grid1.coords t) = false := by decide +kernel
theorem idle1 : ∀ (w : Fin cfg1.W) (t : Fin cfg1.N), 16 ≤ w.val → ¬cond1_1 (grid1.coords t) → cfg1.idle w (grid1.coords t) = true ∧ (cfg1.win w).flush t = false := by decide +kernel

abbrev scM1_0 : Memref sig .tc .vmem S16x256 .f32 := Memref.whole cc1_scratch0
abbrev scM1_1 : Memref sig .tc .vmem S1x1 .f32 := Memref.whole cc1_scratch1

/-- The invariant, with what it says of the slots and of the accumulator as parameters. -/
def Inv1 (c : Dev nD) (A B : sProp 𝕄) : sProp 𝕄 :=
  iprop(((A ∗ B) ∗ Pipeline.scopedRestBut (Ix := Unit) (Name := ℕ) (U := UR sig nD τ) (Lvl := ℕ) (Val := Elt F) spec1 c [cc1_scratch0, cc1_scratch1]) ∗ (∃ r, prngReg c r))

theorem PhiA1_eq (c : Dev nD) :
    (Pipeline.ΦA spec1 c : sProp 𝕄) = Inv1 c iprop(∃ d, owns (c : Thread nD τ) scM1_0 fullShare d) iprop(∃ d, owns (c : Thread nD τ) scM1_1 fullShare d) := by
  unfold Pipeline.ΦA Inv1
  rw [Pipeline.scopedRest_split_of_list spec1 c [cc1_scratch0, cc1_scratch1] ⟨⟨rfl, by decide⟩, rfl, by decide⟩ (by decide)]
  simp only [scM1_0, scM1_1, owns_whole]; rfl

def PhiS1 (c : Dev nD) : (n : ℕ) → n ≤ cfg1.N → sProp 𝕄
  | 0, _ => Pipeline.ΦA spec1 c
  | n + 1, _ => Inv1 c (owns (c : Thread nD τ) scM1_0 fullShare (Spec.slotsAt (P1 V c) (s0 V c) (n + 1))) (owns (c : Thread nD τ) scM1_1 fullShare (Spec.varAt (P1 V c) (s0 V c) (n + 1)))

theorem PhiS1_pos (c : Dev nD) (n : ℕ) (h : n ≤ cfg1.N) (hz : n ≠ 0) :
    PhiS1 V c n h = Inv1 c (owns (c : Thread nD τ) scM1_0 fullShare (Spec.slotsAt (P1 V c) (s0 V c) n)) (owns (c : Thread nD τ) scM1_1 fullShare (Spec.varAt (P1 V c) (s0 V c) n)) := by
  cases n with
  | zero => exact absurd rfl hz
  | succ n => rfl

theorem PhiS1_zero (c : Dev nD) (n : ℕ) (h : n ≤ cfg1.N) (hz : n = 0) : PhiS1 V c n h = Pipeline.ΦA spec1 c := by
  subst hz; rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => Spec.slotsAt (P1 V c) (s0 V c) (t.val + 1)
    | ⟨17, _⟩ => k1_pay2 (Spec.varAt (P1 V c) (s0 V c) (t.val + 1))
    | ⟨_ + 18, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_16 (c : Dev nD) (t : Fin cfg1.N) : (dat1 V c).after 16 t = Spec.slotsAt (P1 V c) (s0 V c) (t.val + 1) := by dsimp only [dat1]
theorem after1_17 (c : Dev nD) (t : Fin cfg1.N) : (dat1 V c).after 17 t = k1_pay2 (Spec.varAt (P1 V c) (s0 V c) (t.val + 1)) := by dsimp only [dat1]

/-- An input's contents before the body are those after it. -/
theorem before1 (c : Dev nD) (t : Fin cfg1.N) (w : Fin cfg1.W) (hw : w.val < 16) (d) :
    (dat1 V c).before w t d = (dat1 V c).after w t := by
  revert d hw w
  change ∀ w : Fin 18, _
  intro w
  fin_cases w <;> intro hw d <;> first
    | exact absurd hw (by decide)
    | exact (dat1 V c).before_in_eq_fetched _ rfl (fun _ => rfl) (fun _ _ _ => rfl) (fun _ => rfl) t d

theorem leaves1 (c : Dev nD) (t : Fin cfg1.N) (w : Fin cfg1.W) (hw : w.val < 16 ∨ cond1_1 (grid1.coords t)) :
    (dat1 V c).leavesExact w t = owns (c : Thread nD τ) ((cfg1.win w).stage (cfg1.slots t w)) fullShare ((dat1 V c).after w t) := by
  unfold Dat.leavesExact; rw [live1 w t hw]

theorem leaves1_idle (c : Dev nD) (t : Fin cfg1.N) (w : Fin cfg1.W) (hw : 16 ≤ w.val) (h : ¬cond1_1 (grid1.coords t)) :
    (dat1 V c).leavesExact w t = iprop(∃ d, owns (c : Thread nD τ) ((cfg1.win w).stage (cfg1.slots t w)) fullShare ((dat1 V c).before w t d)) :=
  (dat1 V c).leavesExact_idle w t (idle1 w t hw h).1 (idle1 w t hw h).2

/-- The operands, read off the input windows at any point. -/
theorem P1_eq (c : Dev nD) (t : Fin cfg1.N) : P1 V c = P ((dat1 V c).after 0 t) ((dat1 V c).after 1 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) ((dat1 V c).after 13 t) ((dat1 V c).after 14 t) ((dat1 V c).after 15 t) := by
  unfold P1 P
  simp only [Spec.Params.mk.injEq]
  exact ⟨(Arr.comp_fix _ (Arr.emb1 0 t)).symm, (Arr.comp_fix _ (Arr.emb1 1 t)).symm, (Arr.comp_fix _ (Arr.emb1 3 t)).symm, (Arr.comp_fix _ (Arr.emb1 4 t)).symm, (Arr.comp_fix _ (Arr.emb1 5 t)).symm, (Arr.comp_fix _ (Arr.emb1 6 t)).symm, (Arr.comp_fix _ (Arr.emb1 7 t)).symm, (Arr.comp_fix _ (Arr.emb1 8 t)).symm, (Arr.comp_fix _ (Arr.emb1 9 t)).symm, (Arr.comp_fix _ (Arr.emb1 10 t)).symm, (Arr.comp_fix _ (Arr.emb1 11 t)).symm, (Arr.comp_fix _ (Arr.emb1 12 t)).symm, (Arr.comp_fix _ (Arr.emb1 13 t)).symm, (Arr.comp_fix _ (Arr.emb1 14 t)).symm, (Arr.comp_fix _ (Arr.emb1 15 t)).symm⟩

theorem s0_eq (c : Dev nD) (t : Fin cfg1.N) : s0 V c = (dat1 V c).after 2 t := (Arr.comp_fix _ (Arr.emb1 2 t)).symm

theorem slotsAt_succ (p : Spec.Params F) (z : Vec F S16x256 .f32) (n : ℕ) :
    Spec.slotsAt p z (n + 1) = Spec.nextSlots p (Spec.slotsAt p z n) := rfl
theorem varAt_succ (p : Spec.Params F) (z : Vec F S16x256 .f32) (n : ℕ) :
    Spec.varAt p z (n + 1) = Spec.nextVar p (Spec.slotsAt p z n) (Spec.varAt p z n) := rfl

def bodyPre1 (c : Dev nD) (t : Fin cfg1.N) : sProp 𝕄 :=
  let Q (w : Fin cfg1.W) : sProp 𝕄 := iprop(∃ d, owns (c : Thread nD τ) ((cfg1.win w).stage (cfg1.slots t w)) fullShare ((dat1 V c).before w t d))
  iprop((dat1 V c).Φ t.castSucc ∗ (dat1 V c).owesAt () t.castSucc ∗ Q 0 ∗ Q 1 ∗ Q 2 ∗ Q 3 ∗ Q 4 ∗ Q 5 ∗ Q 6 ∗ Q 7 ∗ Q 8 ∗ Q 9 ∗ Q 10 ∗ Q 11 ∗ Q 12 ∗ Q 13 ∗ Q 14 ∗ Q 15 ∗ Q 16 ∗ Q 17)

def bodyPost1 (c : Dev nD) (t : Fin cfg1.N) : sProp 𝕄 :=
  let L := (dat1 V c).leavesExact (t := t)
  iprop((dat1 V c).Φ t.succ ∗ (dat1 V c).owesAt () t.succ ∗ L 0 ∗ L 1 ∗ L 2 ∗ L 3 ∗ L 4 ∗ L 5 ∗ L 6 ∗ L 7 ∗ L 8 ∗ L 9 ∗ L 10 ∗ L 11 ∗ L 12 ∗ L 13 ∗ L 14 ∗ L 15 ∗ L 16 ∗ L 17)

set_option maxHeartbeats 4800000 in
/-- The body at any point, by the three cases of the call: the inputs come back as found, the slots and the accumulator one iteration on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp (disch := decide) only [before1 V c t, fun w hw => leaves1 V c t w (.inl hw)]
  rw [show (dat1 V c).owesAt () t.succ = (dat1 V c).owesAt () t.castSucc from rfl,
    show (dat1 V c).Φ t.succ = PhiS1 V c (t.val + 1) t.isLt from rfl, PhiS1_pos V c _ _ (Nat.succ_ne_zero _),
    show (dat1 V c).Φ t.castSucc = PhiS1 V c t.val (Nat.le_of_lt t.isLt) from rfl, slotsAt_succ, varAt_succ]
  have hN : t.val < 3 := lt_of_lt_of_eq t.isLt (show cfg1.N = 3 from N_1)
  rcases (by omega : t.val = 0 ∨ t.val = 1 ∨ t.val = 2) with hz | hz | hz <;>
    [(have hc0 : cond1_0 (grid1.coords t) := by rw [hcond1_0, hz]
      have hc1 : ¬cond1_1 (grid1.coords t) := by rw [hcond1_1, hz]; decide
      rw [leaves1_idle V c t 16 (by decide) hc1, leaves1_idle V c t 17 (by decide) hc1, PhiS1_zero V c _ _ hz, PhiA1_eq,
        show Spec.slotsAt (P1 V c) (s0 V c) t.val = k1_pay3 (s0 V c) from by rw [hz]; rfl,
        show Spec.varAt (P1 V c) (s0 V c) t.val = k1_pay4 from by rw [hz]; rfl]);
     (have hc0 : ¬cond1_0 (grid1.coords t) := by rw [hcond1_0, hz]; decide
      have hc1 : ¬cond1_1 (grid1.coords t) := by rw [hcond1_1, hz]; decide
      rw [leaves1_idle V c t 16 (by decide) hc1, leaves1_idle V c t 17 (by decide) hc1, PhiS1_pos V c _ _ (by omega)]);
     (have hc0 : ¬cond1_0 (grid1.coords t) := by rw [hcond1_0, hz]; decide
      have hc1 : cond1_1 (grid1.coords t) := by rw [hcond1_1, hz]
      rw [leaves1 V c t 16 (.inr hc1), leaves1 V c t 17 (.inr hc1), after1_16, after1_17, slotsAt_succ, varAt_succ,
        PhiS1_pos V c _ _ (by omega)])] <;>
    (rw [P1_eq V c t, s0_eq V c t]; unfold Inv1
     iintro ⟨⟨⟨⟨HS0, HS1⟩, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
     first
       | iapply (run1_A c Set.univ (grid1.coords t) hc0 hc1 _ _ _ _ _ _ _ _ _ _ _ _ _ _ _ _ _ _ _ _ _ _ _ _ _ _ _ _ _ _ _ _ _ _ _ _ _ _ _ _ _ _ _ _ _ _ _ _ _ _ _ _ _ _ _ _ _ _ _)
       | iapply (run1_B c Set.univ (grid1.coords t) hc0 hc1 _ _ _ _ _ _ _ _ _ _ _ _ _ _ _ _ _ _ _ _ _ _ _ _ _ _ _ _ _ _ _ _ _ _ _ _ _ _ _ _ _ _ _ _ _ _ _ _ _ _ _ _ _ _ _ _ _ _ _ _ _)
       | iapply (run1_C c Set.univ (grid1.coords t) hc0 hc1 _ _ _ _ _ _ _ _ _ _ _ _ _ _ _ _ _ _ _ _ _ _ _ _ _ _ _ _ _ _ _ _ _ _ _ _ _ _ _ _ _ _ _ _ _ _ _ _ _ _ _ _ _ _ _ _ _ _ _)
     iframe
     try (isplitl [H16]; (iexists _; iexact H16); isplitl [H17]; (iexists _; iexact H17))
     iintro ⟨G0, G1, G2, G3, G4, G5, G6, G7, G8, G9, G10, G11, G12, G13, G14, G15, G16, G17, GS0, GS1⟩
     iframe
     try (isplitl [G16] <;> iexists _ <;> iassumption))

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold Inv1
  iintro ⟨⟨⟨HS0, HS1⟩, R⟩, Hg⟩
  iframe
  isplitl [HS0] <;> iexists _ <;> iassumption

theorem hout1 (c : Dev nD) : (dat1 V c).Φ (Fin.last cfg1.N) ⊢ Pipeline.ΦA spec1 c :=
  Phi_out1 V c _ (by rw [Fin.val_last]; have : cfg1.N = 3 := N_1; omega)

end Region

end Cert.KernelIdeal.R1

end
-- ==== Proof.RunI.lean ====
import proofs.«128765_j37245956390967_2_alg».proof.Proof.Gen.KernelIdeal.Regions
import proofs.«128765_j37245956390967_2_alg».proof.Proof.R0I
import proofs.«128765_j37245956390967_2_alg».proof.Proof.R1I

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (R1.dat1 (V2 m ρ) c).arrAt w cfg1.N
theorem W3_arr (c : Dev nD) (w : Fin cfg1.W) :
    W3 m ρ c (Proc.devRef .tc (Pipeline.arrRef spec1 w)) = (R1.dat1 (V2 m ρ) c).arrAt w cfg1.N := by
  unfold W3; exact Pipeline.withArrays_arr spec1 launch1.win.arr_inj c _ _ w

abbrev W4 : Dev nD → Valuation τ sig (Elt F) := fun c => StableHlo.after hostOps2 (W3 m ρ c)

theorem W2_keep (c : Dev nD) (b : Ref sig .tc) (hb : b ∉ ([main_v17_0, main_v17_1] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; revert w; decide
    exact (W2_arr m ρ c w).trans (((R0.dat0 (V1 m ρ) c).arrAt_in w hin _).trans (R0.A_eq0 (V1 m ρ) c w))
  · unfold W2; exact Pipeline.withArrays_of_ne spec0 c _ _ b fun w e => h ⟨w, e⟩

theorem W3_keep (c : Dev nD) (b : Ref sig .tc) (hb : b ∉ ([main_v18_0, main_v18_1] : List (Ref sig .tc))) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      revert hb; revert w; decide
    exact (W3_arr m ρ c w).trans (((R1.dat1 (V2 m ρ) c).arrAt_in w hin _).trans (R1.A_eq1 (V2 m ρ) c w))
  · unfold W3; exact Pipeline.withArrays_of_ne spec1 c _ _ b fun w e => h ⟨w, e⟩

theorem W4_kept (c : Dev nD) (b : Ref sig .tc) (h0 : b ∉ (hostOps0_W : List (Ref sig .tc))) (h2 : b ∉ (hostOps2_W : List (Ref sig .tc)))
    (hr0 : b ∉ ([main_v17_0, main_v17_1] : List (Ref sig .tc))) (hr1 : b ∉ ([main_v18_0, main_v18_1] : List (Ref sig .tc))) :
    W4 m ρ c (Proc.devRef .tc b) = m ((c : Thread nD τ).loc b) :=
  (StableHlo.after_of_writes_sub hostOps2 _ hostOps2_writes h2).trans <| (W3_keep m ρ c b hr1).trans <| (W2_keep m ρ c b hr0).trans <|
    StableHlo.after_of_writes_sub hostOps0 (W0 m ρ c) hostOps0_writes h0

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V2 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev Tw (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre := Tw (W1 m ρ)
  post := Tw (W2 m ρ)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    iframe
    iempintro
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (fun w => (W2_arr m ρ c w).symm)
      fun b hb => by unfold W2; exact Pipeline.withArrays_of_ne spec0 c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m ρ) c).loose
  hwaits := Pipeline.hwaits_of_owed_zero _ _ _ _ L lv 1 fun _ _ => rfl
  pre := Tw (W2 m ρ)
  post := Tw (W3 m ρ)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine (?_ : _ ⊢ (Pipeline.ΦA spec1 c : sProp 𝕄)).trans (R1.hin1 (V2 m ρ) c)
    unfold Pipeline.ΦA
    iintro ⟨Hp, -, Hr⟩
    iframe
  hout c := by
    rw [Pipeline.ownSems0_none]
    refine (R1.hout1 (V2 m ρ) c).trans (?_ : (Pipeline.ΦA spec1 c : sProp 𝕄) ⊢ _)
    unfold Pipeline.ΦA
    iintro ⟨Hr, Hp⟩
    iframe
    iempintro
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (fun b => W3 m ρ c b) ((pdats m ρ 1 c).arrAt · cfg1.N) (fun w => (W3_arr m ρ c w).symm)
      fun b hb => by unfold W3; exact Pipeline.withArrays_of_ne spec1 c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tw (W0 m ρ)) (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

theorem W4_out0 (c : Dev nD) :
    W4 m ρ c (Proc.devRef .tc main_v18_0) = (R1.dat1 (V2 m ρ) c).arrAt 16 cfg1.N :=
  (StableHlo.after_of_writes_sub hostOps2 _ hostOps2_writes (by decide)).trans (W3_arr m ρ c 16)

end Cert.KernelIdeal.Run

end
-- ==== Proof.ResI.lean ====
import proofs.«128765_j37245956390967_2_alg».proof.Proof.RunI
import proofs.«128765_j37245956390967_2_alg».proof.Proof.ArrI

noncomputable section

namespace Cert.KernelIdeal.Res

open Idealize.ShloMosaic Idealize.ShloMosaic.TcCoe Idealize.ShloMosaic.Tactic
open Idealize.SL Idealize.SL.Sem
open Cert.KernelIdeal Cert.KernelIdeal.Gen

variable {F : FTy → Type} [FloatOps F] (m : (ℓ : Loc nD τ sig) → Buf (Elt F) ℓ) (ρ : Dev nD → PrngReg)

/-- The second call's fifteen operands as functions of the launch memory: keys and values of the inputs, each weight matrix transposed, each vector as a row. -/
def Pm (c : Dev nD) : Spec.Params F where
  kk := Arr.kArr (m ((c : Thread nD τ).loc main_arg0)) (broadcastInDim S1x768 ![1] bcast_S768_S1x768_1 (m ((c : Thread nD τ).loc main_arg1))) (broadcastInDim S1x768 ![1] bcast_S768_S1x768_1 (m ((c : Thread nD τ).loc main_arg2)))
    (transpose S768x256 [1, 0] (m ((c : Thread nD τ).loc main_arg9)) transposes_S256x768_S768x256_1_0)
  vv := Arr.vArr (m ((c : Thread nD τ).loc main_arg0)) (broadcastInDim S1x768 ![1] bcast_S768_S1x768_1 (m ((c : Thread nD τ).loc main_arg1))) (broadcastInDim S1x768 ![1] bcast_S768_S1x768_1 (m ((c : Thread nD τ).loc main_arg2)))
    (transpose S768x256 [1, 0] (m ((c : Thread nD τ).loc main_arg10)) transposes_S256x768_S768x256_1_0)
  wqT := transpose S256x256 [1, 0] (m ((c : Thread nD τ).loc main_arg8)) transposes_S256x256_S256x256_1_0
  lnsw := broadcastInDim S1x256 ![1] bcast_S256_S1x256_1 (m ((c : Thread nD τ).loc main_arg3))
  lnsb := broadcastInDim S1x256 ![1] bcast_S256_S1x256_1 (m ((c : Thread nD τ).loc main_arg4))
  wihT := transpose S256x768 [1, 0] (m ((c : Thread nD τ).loc main_arg11)) transposes_S768x256_S256x768_1_0
  whhT := transpose S256x768 [1, 0] (m ((c : Thread nD τ).loc main_arg12)) transposes_S768x256_S256x768_1_0
  bih := broadcastInDim S1x768 ![1] bcast_S768_S1x768_1 (m ((c : Thread nD τ).loc main_arg13))
  bhh := broadcastInDim S1x768 ![1] bcast_S768_S1x768_1 (m ((c : Thread nD τ).loc main_arg14))
  lnmw := broadcastInDim S1x256 ![1] bcast_S256_S1x256_1 (m ((c : Thread nD τ).loc main_arg5))
  lnmb := broadcastInDim S1x256 ![1] bcast_S256_S1x256_1 (m ((c : Thread nD τ).loc main_arg6))
  w1T := transpose S256x512 [1, 0] (m ((c : Thread nD τ).loc main_arg15)) transposes_S512x256_S256x512_1_0
  b1 := broadcastInDim S1x512 ![1] bcast_S512_S1x512_1 (m ((c : Thread nD τ).loc main_arg16))
  w2T := transpose S512x256 [1, 0] (m ((c : Thread nD τ).loc main_arg17)) transposes_S256x512_S512x256_1_0
  b2 := broadcastInDim S1x256 ![1] bcast_S256_S1x256_1 (m ((c : Thread nD τ).loc main_arg18))

/-- The second call is entered with exactly these: block t of either array the first call leaves is computed from row block t of the inputs, and every other operand is written once, before both calls. -/
theorem P1_eq (c : Dev nD) : R1.P1 (Run.V2 m ρ) c = Pm m c := by
  unfold R1.P1 Pm
  congr 1
  · refine (Run.W2_arr m ρ c 5).trans (Arr.arr0_5 _ _ _ _ _ fun t => (R0.after0_5 (Run.V1 m ρ) c t).trans ?_)
    unfold R0.iblk0
    rw [Arr.blk0_0 _ t, Arr.blk0_1 _ t, Arr.blk0_2 _ t, Arr.blk0_3 _ t]
    congr 2 <;> (after_results <;> rfl)
  · refine (Run.W2_arr m ρ c 6).trans (Arr.arr0_6 _ _ _ _ _ fun t => (R0.after0_6 (Run.V1 m ρ) c t).trans ?_)
    unfold R0.iblk0
    rw [Arr.blk0_0 _ t, Arr.blk0_1 _ t, Arr.blk0_2 _ t, Arr.blk0_4 _ t]
    congr 2 <;> (after_results <;> rfl)
  all_goals exact (Run.W2_keep m ρ c _ (by decide)).trans (by after_results <;> rfl)

/-- It starts from the launched slots, which nothing before it writes. -/
theorem s0_eq (c : Dev nD) : R1.s0 (Run.V2 m ρ) c = m ((c : Thread nD τ).loc main_arg7) :=
  (Run.W2_keep m ρ c main_arg7 (by decide)).trans (StableHlo.after_of_writes_sub hostOps0 _ hostOps0_writes (by decide))

/-- The first result: the slots after three iterations from the launched slots. -/
theorem out0_eq (c : Dev nD) :
    (Run.W4 m ρ c (Proc.devRef .tc main_v18_0) : Vec F S16x256 .f32)
      = Spec.outSlots (Pm m c) (m ((c : Thread nD τ).loc main_arg7)) := by
  refine (Run.W4_out0 m ρ c).trans ((Arr.arr1_16 _ _ (R1.after1_16 (Run.V2 m ρ) c ⟨2, Arr.last1_lt⟩)).trans ?_)
  rw [P1_eq m ρ c, s0_eq m ρ c]
  rfl

/-- The second result: the mean of the three variance terms, as a scalar. -/
theorem out1_eq (c : Dev nD) :
    (Run.W4 m ρ c (Proc.devRef .tc main_v19) : Vec F S_ .f32)
      = shapeCast S_ (Spec.outVar (Pm m c) (m ((c : Thread nD τ).loc main_arg7))) shapeCasts_S1x1_S_ := by
  have h : (Run.W3 m ρ c (Proc.devRef .tc main_v18_1) : Vec F S1x1 .f32) = Spec.outVar (Pm m c) (m ((c : Thread nD τ).loc main_arg7)) := by
    refine (Run.W3_arr m ρ c 17).trans ((Arr.arr1_17 _ _ (R1.after1_17 (Run.V2 m ρ) c ⟨2, Arr.last1_lt⟩)).trans ?_)
    rw [P1_eq m ρ c, s0_eq m ρ c]
    rfl
  rw [← h]
  after_results
  rfl

end Cert.KernelIdeal.Res

end
-- ==== Proof.MSpec.lean ====
import Idealize.ShloMosaic.PureOps.Ideal

noncomputable section

namespace Cert.Proof.MS

open Idealize.ShloMosaic Finset

def c768 : EReal := Ideal.ofBits .f32 0x44400000#32
def c256 : EReal := Ideal.ofBits .f32 0x43800000#32
def epsLN : EReal := Ideal.ofBits .f32 0x3727C5AC#32
def cScale : EReal := Ideal.ofBits .f32 0x3D800000#32
def epsAttn : EReal := Ideal.ofBits .f32 0x322BCC77#32
def cKN : EReal := Ideal.ofBits .f32 0x3A800000#32
def cNK1 : EReal := Ideal.ofBits .f32 0x487FFFC0#32
def cNK : EReal := Ideal.ofBits .f32 0x48800000#32
def c3 : EReal := Ideal.ofBits .f32 0x40400000#32
def c1 : EReal := Ideal.ofBits .f32 0x3F800000#32
def cNegInf : EReal := Ideal.ofBits .f32 0xFF800000#32

section Generic
variable {r n c : ℕ}

def mean (N : EReal) (x : Fin r → Fin n → EReal) (i : Fin r) : EReal := Ideal.div (∑ k, x i k) N
def cen (N : EReal) (x : Fin r → Fin n → EReal) (i : Fin r) (j : Fin n) : EReal := x i j - mean N x i
def var (N : EReal) (x : Fin r → Fin n → EReal) (i : Fin r) : EReal := Ideal.div (∑ k, cen N x i k * cen N x i k) N
def ln (N : EReal) (x : Fin r → Fin n → EReal) (w b : Fin n → EReal) : Fin r → Fin n → EReal :=
  fun i j => cen N x i j * Ideal.rsqrt (var N x i + epsLN) * w j + b j
def mm (A : Fin r → Fin n → EReal) (B : Fin n → Fin c → EReal) : Fin r → Fin c → EReal := fun i j => ∑ k, A i k * B k j

end Generic

structure In where
  x : Fin 16384 → Fin 768 → EReal
  lniw : Fin 768 → EReal
  lnib : Fin 768 → EReal
  lnsw : Fin 256 → EReal
  lnsb : Fin 256 → EReal
  lnmw : Fin 256 → EReal
  lnmb : Fin 256 → EReal
  s0 : Fin 16 → Fin 256 → EReal
  wq : Fin 256 → Fin 256 → EReal
  wk : Fin 256 → Fin 768 → EReal
  wv : Fin 256 → Fin 768 → EReal
  wih : Fin 768 → Fin 256 → EReal
  whh : Fin 768 → Fin 256 → EReal
  bih : Fin 768 → EReal
  bhh : Fin 768 → EReal
  w1 : Fin 512 → Fin 256 → EReal
  b1 : Fin 512 → EReal
  w2 : Fin 256 → Fin 512 → EReal
  b2 : Fin 256 → EReal

structure In.Real (a : In) : Prop where
  x : ∀ i j, ∃ t : ℝ, a.x i j = t
  lniw : ∀ j, ∃ t : ℝ, a.lniw j = t
  lnib : ∀ j, ∃ t : ℝ, a.lnib j = t
  lnsw : ∀ j, ∃ t : ℝ, a.lnsw j = t
  lnsb : ∀ j, ∃ t : ℝ, a.lnsb j = t
  lnmw : ∀ j, ∃ t : ℝ, a.lnmw j = t
  lnmb : ∀ j, ∃ t : ℝ, a.lnmb j = t
  s0 : ∀ i j, ∃ t : ℝ, a.s0 i j = t
  wq : ∀ i j, ∃ t : ℝ, a.wq i j = t
  wk : ∀ i j, ∃ t : ℝ, a.wk i j = t
  wv : ∀ i j, ∃ t : ℝ, a.wv i j = t
  wih : ∀ i j, ∃ t : ℝ, a.wih i j = t
  whh : ∀ i j, ∃ t : ℝ, a.whh i j = t
  bih : ∀ j, ∃ t : ℝ, a.bih j = t
  bhh : ∀ j, ∃ t : ℝ, a.bhh j = t
  w1 : ∀ i j, ∃ t : ℝ, a.w1 i j = t
  b1 : ∀ j, ∃ t : ℝ, a.b1 j = t
  w2 : ∀ i j, ∃ t : ℝ, a.w2 i j = t
  b2 : ∀ j, ∃ t : ℝ, a.b2 j = t

variable (a : In)

def xln : Fin 16384 → Fin 768 → EReal := ln c768 a.x a.lniw a.lnib
def K : Fin 16384 → Fin 256 → EReal := mm (xln a) (fun d h => a.wk h d)
def V : Fin 16384 → Fin 256 → EReal := mm (xln a) (fun d h => a.wv h d)

abbrev Slots := Fin 16 → Fin 256 → EReal

def q (s : Slots) : Slots := fun i j => mm (ln c256 s a.lnsw a.lnsb) (fun d h => a.wq h d) i j * cScale
def logits (s : Slots) : Fin 16384 → Fin 16 → EReal := fun n i => ∑ d, K a n d * q a s i d
-- A fold of `max` from −∞, then `max` with −∞ again.
def rowMax (l : Fin 16384 → Fin 16 → EReal) (n : Fin 16384) : EReal :=
  max cNegInf ((Finset.univ : Finset (Fin 16)).fold max cNegInf (fun i => l n i))
def ex (s : Slots) : Fin 16384 → Fin 16 → EReal := fun n i => Ideal.exp (logits a s n i - rowMax (logits a s) n)
def attn (s : Slots) : Fin 16384 → Fin 16 → EReal := fun n i => Ideal.div (ex a s n i) (∑ i', ex a s n i') + epsAttn
def colsum (s : Slots) (i : Fin 16) : EReal := ∑ n, attn a s n i
def sumsq (s : Slots) (i : Fin 16) : EReal := ∑ n, attn a s n i * attn a s n i
def numer (s : Slots) (i : Fin 16) (h : Fin 256) : EReal := ∑ n, attn a s n i * V a n h

-- One way: divide after summing.
def updK (s : Slots) : Slots := fun i h => Ideal.div (numer a s i h) (colsum a s i)
def varK (s : Slots) : EReal :=
  Ideal.div ((∑ i, Ideal.div (sumsq a s i) (colsum a s i * colsum a s i)) - cKN) cNK1

-- The other way: normalise the weights first.
def attnN (s : Slots) : Fin 16384 → Fin 16 → EReal := fun n i => Ideal.div (attn a s n i) (colsum a s i)
def updR (s : Slots) : Slots := fun i h => ∑ n, attnN a s n i * V a n h
def meanR (s : Slots) : EReal := Ideal.div (∑ n, ∑ i, attnN a s n i) cNK
def varR (s : Slots) : EReal :=
  Ideal.div (∑ n, ∑ i, (attnN a s n i - meanR a s) * (attnN a s n i - meanR a s)) cNK1

def col (off : ℕ) (h : off + 256 ≤ 768) (j : Fin 256) : Fin 768 := ⟨off + j.val, by have := j.isLt; omega⟩

def gi (u : Slots) : Fin 16 → Fin 768 → EReal := fun i j => (∑ d, u i d * a.wih j d) + a.bih j
def gh (s : Slots) : Fin 16 → Fin 768 → EReal := fun i j => (∑ d, s i d * a.whh j d) + a.bhh j
-- Gates ordered r, z, n: `(1 − z) · n + z · s`.
def gru (u s : Slots) : Slots := fun i j =>
  (c1 - Ideal.logistic (gi a u i (col 256 (by decide) j) + gh a s i (col 256 (by decide) j)))
      * Ideal.tanh (gi a u i (col 512 (by decide) j)
          + Ideal.logistic (gi a u i (col 0 (by decide) j) + gh a s i (col 0 (by decide) j)) * gh a s i (col 512 (by decide) j))
    + Ideal.logistic (gi a u i (col 256 (by decide) j) + gh a s i (col 256 (by decide) j)) * s i j
def hid (g : Slots) : Fin 16 → Fin 512 → EReal := fun i m =>
  max ((∑ d, ln c256 g a.lnmw a.lnmb i d * a.w1 m d) + a.b1 m) 0
def mlp (g : Slots) : Slots := fun i j => g i j + ((∑ m, hid a g i m * a.w2 j m) + a.b2 j)

def nextK (s : Slots) : Slots := mlp a (gru a (updK a s) s)
def nextR (s : Slots) : Slots := mlp a (gru a (updR a s) s)

def slotsK : ℕ → Slots
  | 0 => a.s0
  | n + 1 => nextK a (slotsK n)
def slotsR : ℕ → Slots
  | 0 => a.s0
  | n + 1 => nextR a (slotsR n)

def outVarK : EReal := Ideal.div ((varK a (slotsK a 0) + varK a (slotsK a 1)) + varK a (slotsK a 2)) c3
def outVarR : EReal := Ideal.div ((varR a (slotsR a 0) + varR a (slotsR a 1)) + varR a (slotsR a 2)) c3

end Cert.Proof.MS

end
-- ==== Proof.PreReal.lean ====
import proofs.«128765_j37245956390967_2_alg».proof.Defs
import proofs.«128765_j37245956390967_2_alg».proof.Proof.Gen.Pre_finite_inputs
import proofs.«128765_j37245956390967_2_alg».proof.Proof.MSpec
import Idealize.ShloMosaic.Lib.ReduceAll
import Idealize.ShloMosaic.Lib.ValueIdx
import Idealize.ShloMosaic.Lib.StableHlo.Predicate

noncomputable section

namespace Cert.Proof.PR

open Idealize.ShloMosaic Idealize.SL.Sem Idealize.ShloMosaic.ValueIdx Cert.KernelIdeal

abbrev Mem := (ℓ : Loc nD τ sig) → Buf (Elt Ideal) ℓ

section
variable (m : Mem) (c : Dev nD)

abbrev arg0 : Vec Ideal S16384x768 .f32 := m ((c.tc : Thread nD τ).loc main_arg0)
abbrev arg1 : Vec Ideal S768 .f32 := m ((c.tc : Thread nD τ).loc main_arg1)
abbrev arg2 : Vec Ideal S768 .f32 := m ((c.tc : Thread nD τ).loc main_arg2)
abbrev arg3 : Vec Ideal S256 .f32 := m ((c.tc : Thread nD τ).loc main_arg3)
abbrev arg4 : Vec Ideal S256 .f32 := m ((c.tc : Thread nD τ).loc main_arg4)
abbrev arg5 : Vec Ideal S256 .f32 := m ((c.tc : Thread nD τ).loc main_arg5)
abbrev arg6 : Vec Ideal S256 .f32 := m ((c.tc : Thread nD τ).loc main_arg6)
abbrev arg7 : Vec Ideal S16x256 .f32 := m ((c.tc : Thread nD τ).loc main_arg7)
abbrev arg8 : Vec Ideal S256x256 .f32 := m ((c.tc : Thread nD τ).loc main_arg8)
abbrev arg9 : Vec Ideal S256x768 .f32 := m ((c.tc : Thread nD τ).loc main_arg9)
abbrev arg10 : Vec Ideal S256x768 .f32 := m ((c.tc : Thread nD τ).loc main_arg10)
abbrev arg11 : Vec Ideal S768x256 .f32 := m ((c.tc : Thread nD τ).loc main_arg11)
abbrev arg12 : Vec Ideal S768x256 .f32 := m ((c.tc : Thread nD τ).loc main_arg12)
abbrev arg13 : Vec Ideal S768 .f32 := m ((c.tc : Thread nD τ).loc main_arg13)
abbrev arg14 : Vec Ideal S768 .f32 := m ((c.tc : Thread nD τ).loc main_arg14)
abbrev arg15 : Vec Ideal S512x256 .f32 := m ((c.tc : Thread nD τ).loc main_arg15)
abbrev arg16 : Vec Ideal S512 .f32 := m ((c.tc : Thread nD τ).loc main_arg16)
abbrev arg17 : Vec Ideal S256x512 .f32 := m ((c.tc : Thread nD τ).loc main_arg17)
abbrev arg18 : Vec Ideal S256 .f32 := m ((c.tc : Thread nD τ).loc main_arg18)

def inOfK : MS.In where
  x := fun i j => arg0 m c (ix2 i j)
  lniw := fun j => arg1 m c (ix1 j)
  lnib := fun j => arg2 m c (ix1 j)
  lnsw := fun j => arg3 m c (ix1 j)
  lnsb := fun j => arg4 m c (ix1 j)
  lnmw := fun j => arg5 m c (ix1 j)
  lnmb := fun j => arg6 m c (ix1 j)
  s0 := fun i j => arg7 m c (ix2 i j)
  wq := fun i j => arg8 m c (ix2 i j)
  wk := fun i j => arg9 m c (ix2 i j)
  wv := fun i j => arg10 m c (ix2 i j)
  wih := fun i j => arg11 m c (ix2 i j)
  whh := fun i j => arg12 m c (ix2 i j)
  bih := fun j => arg13 m c (ix1 j)
  bhh := fun j => arg14 m c (ix1 j)
  w1 := fun i j => arg15 m c (ix2 i j)
  b1 := fun j => arg16 m c (ix1 j)
  w2 := fun i j => arg17 m c (ix2 i j)
  b2 := fun j => arg18 m c (ix1 j)

end

instance : Subsingleton Pre_finite_inputs.S_.Idx := ⟨fun a b => funext fun d => d.elim0⟩

-- An extended real whose absolute value is below +∞ is neither +∞ nor −∞.
theorem all_real {s : Shape} {axes : List (Fin s.rank)} (hb : Pre_finite_inputs.S_.BroadcastsInDim s (![] : Fin 0 → Fin s.rank))
    (hr : s.ReducesTo axes Pre_finite_inputs.S_) (h0 : 0 < Pre_finite_inputs.S_.numel) (x : FVec Ideal s .f32)
    (e : Host.reduce IntOp.andi
        (cmpf .olt (Host.absf x) (broadcastInDim s ![] hb (constant (F := Ideal) Pre_finite_inputs.S_ .f32 0x7F800000#32)))
        (constantI Pre_finite_inputs.S_ 1 1#1) hr h0 ix0 = 1#1) (i : s.Idx) : ∃ t : ℝ, x i = t := by
  have h : Ideal.cmp .olt (max (x i) (-x i)) (Ideal.ofBits .f32 0x7F800000#32) = 1#1 :=
    Host.reduce_andi_all _ _ hr h0 ix0 e i
  have h2 : max (x i) (-x i) < ⊤ := by
    simpa [Ideal.cmp, Ideal.ofBits, Ideal.ieee, StableHlo.Predicate.ofBool_eq_one_iff] using h
  generalize x i = y at h2 ⊢
  induction y using EReal.rec with
  | coe r => exact ⟨r, rfl⟩
  | _ => simp at h2

-- The precondition is the conjunction of nineteen "every entry is below +∞ in absolute value".
theorem real_of_pre [Pre_finite_inputs.Facts] (m : Mem) (h : Pre_KernelIdeal m) (c : Dev nD) :
    (inOfK m c).Real := by
  have h0 := congrFun (h c) ix0
  dsimp only [Pre_finite_inputs.fn, Pre_finite_inputs.fn_part1, Pre_finite_inputs.fn_part2, Pre_finite_inputs.fn_part3, Pre_finite_inputs.fn_part4, Pre_finite_inputs.fn_part5, andi] at h0
  simp only [IntOp.andi_eq_one] at h0
  obtain ⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩ := h0
  exact ⟨fun _ _ => all_real _ _ _ _ e0 _,
    fun _ => all_real _ _ _ _ e1 _,
    fun _ => all_real _ _ _ _ e2 _,
    fun _ => all_real _ _ _ _ e3 _,
    fun _ => all_real _ _ _ _ e4 _,
    fun _ => all_real _ _ _ _ e5 _,
    fun _ => all_real _ _ _ _ e6 _,
    fun _ _ => all_real _ _ _ _ e7 _,
    fun _ _ => all_real _ _ _ _ e8 _,
    fun _ _ => all_real _ _ _ _ e9 _,
    fun _ _ => all_real _ _ _ _ e10 _,
    fun _ _ => all_real _ _ _ _ e11 _,
    fun _ _ => all_real _ _ _ _ e12 _,
    fun _ => all_real _ _ _ _ e13 _,
    fun _ => all_real _ _ _ _ e14 _,
    fun _ _ => all_real _ _ _ _ e15 _,
    fun _ => all_real _ _ _ _ e16 _,
    fun _ _ => all_real _ _ _ _ e17 _,
    fun _ => all_real _ _ _ _ e18 _⟩

end Cert.Proof.PR

end
-- ==== Proof.KReadLN.lean ====
import proofs.«128765_j37245956390967_2_alg».proof.Proof.Gen.KernelIdeal.Skeleton
import proofs.«128765_j37245956390967_2_alg».proof.Proof.SpecI
import proofs.«128765_j37245956390967_2_alg».proof.Proof.MSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Proof.KRead

open Idealize.ShloMosaic Idealize.ShloMosaic.ValueIdx Cert.KernelIdeal Cert.KernelIdeal.Gen Finset

namespace LN

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

-- Reducing a matrix over one axis inserts that axis's coordinate into the index.
theorem lift_row {a b : ℕ} (h : (⟨2, ![a, b]⟩ : Shape).Reduces [1] ⟨1, ![a]⟩) (i : Fin a) (k : Fin b) :
    h.lift (ix1 i) k = ix2 i k :=
  funext fun c => Fin.ext (by
    match c with
    | ⟨0, _⟩ => rfl
    | ⟨1, _⟩ => rfl)

theorem lift_col {a b : ℕ} (h : (⟨2, ![a, b]⟩ : Shape).Reduces [0] ⟨1, ![b]⟩) (i : Fin b) (k : Fin a) :
    h.lift (ix1 i) k = ix2 k i :=
  funext fun c => Fin.ext (by
    match c with
    | ⟨0, _⟩ => rfl
    | ⟨1, _⟩ => rfl)

theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction (F := Ideal) .add [1] ⟨1, ![a]⟩ src 0x00000000#32 h hφ hacc (ix1 i) = ∑ k : Fin b, src (ix2 i k) :=
  (Ideal.multiReduction_add_single src 0x00000000#32 h hφ hacc (ix1 i)).trans
    (Finset.sum_congr rfl fun k _ => congrArg src (lift_row h i k))

theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (i : Fin b) :
    multiReduction (F := Ideal) .add [0] ⟨1, ![b]⟩ src 0x00000000#32 h hφ hacc (ix1 i) = ∑ k : Fin a, src (ix2 k i) :=
  (Ideal.multiReduction_add_single src 0x00000000#32 h hφ hacc (ix1 i)).trans
    (Finset.sum_congr rfl fun k _ => congrArg src (lift_col h i k))

theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction (F := Ideal) .maximumf [1] ⟨1, ![a]⟩ src 0xFF800000#32 h hφ hacc (ix1 i)
      = (Finset.univ : Finset (Fin b)).fold max MS.cNegInf (fun k => src (ix2 i k)) :=
  (Ideal.multiReduction_maximumf_single src 0xFF800000#32 h hφ hacc (ix1 i)).trans
    (congrArg (Finset.fold max MS.cNegInf · Finset.univ) (funext fun k => congrArg src (lift_row h i k)))

theorem rsqrt_apply {s : Shape} {φ : FTy} (a : FVec Ideal s φ) (i : s.Idx) : rsqrt a i = Ideal.rsqrt (a i) := rfl

-- A rows-by-columns product into zeros, entry by entry.
theorem mm_apply {m k n : ℕ} {φ₁ φ₂ : FTy} (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (p : Fin m) (c : Fin n) :
    FloatOps.matmul D prec A B (constant (F := Ideal) ⟨2, ![m, n]⟩ .f32 0x00000000#32) (ix2 p c)
      = ∑ d : Fin k, A (ix2 p d) * B (ix2 d c) := by
  subst hD
  exact (Ideal.matmul_constant_zero_apply _ prec A B _).trans
    ((Ideal.dotGeneral_apply _ prec _ A B _).symm.trans (StackMember.dotGeneral_plain_apply prec A B p c))

theorem ofBits_zero : (FloatOps.ofBits .f32 0x00000000#32 : Ideal .f32) = 0 := Ideal.ofBits_zero_f32

theorem pay1_apply (xb : Vec Ideal S1024x768 .f32) (w b : Vec Ideal S1x768 .f32) (p : Fin 1024) (d : Fin 768) :
    k0_pay1 xb w b (ix2 p d)
      = MS.ln MS.c768 (fun i d => xb (ix2 i d)) (fun d => w (ix2 0 d)) (fun d => b (ix2 0 d)) p d := by
  unfold k0_pay1
  simp only [truncf_apply, mulf_apply, broadcast_apply, addf_apply, subf_apply, divf_apply, rsqrt_apply,
    broadcastTo_a1_ab_apply, broadcastTo_1b_ab_apply, shapeCast_a_a1_apply, shapeCast_self,
    rowSum_apply (a := 1024) (b := 768)]
  rfl

end LN

open LN

theorem kBlock_apply (xb : Vec Ideal S1024x768 .f32) (w b : Vec Ideal S1x768 .f32) (wkT : Vec Ideal S768x256 .f32)
    (p : Fin 1024) (h : Fin 256) :
    Cert.KernelIdeal.Spec.kBlock xb w b wkT (ix2 p h)
      = MS.mm (MS.ln MS.c768 (fun i d => xb (ix2 i d)) (fun d => w (ix2 0 d)) (fun d => b (ix2 0 d)))
          (fun d h => wkT (ix2 d h)) p h := by
  unfold Spec.kBlock k0_pay2
  simp only [matmul, mm_apply dot_S1024x768_S768x256_S1024x256_1_0_0_1_n_n rfl, truncf_apply, shapeCast_self, pay1_apply]
  rfl

theorem vBlock_apply (xb : Vec Ideal S1024x768 .f32) (w b : Vec Ideal S1x768 .f32) (wvT : Vec Ideal S768x256 .f32)
    (p : Fin 1024) (h : Fin 256) :
    Cert.KernelIdeal.Spec.vBlock xb w b wvT (ix2 p h)
      = MS.mm (MS.ln MS.c768 (fun i d => xb (ix2 i d)) (fun d => w (ix2 0 d)) (fun d => b (ix2 0 d)))
          (fun d h => wvT (ix2 d h)) p h := by
  unfold Spec.vBlock k0_pay3
  simp only [matmul, mm_apply dot_S1024x768_S768x256_S1024x256_1_0_0_1_n_n rfl, truncf_apply, shapeCast_self, pay1_apply]
  rfl

theorem query_apply (p : Spec.Params Ideal) (s : Vec Ideal S16x256 .f32) (i : Fin 16) (j : Fin 256) :
    Spec.query p s (ix2 i j)
      = MS.mm (MS.ln MS.c256 (fun i d => s (ix2 i d)) (fun d => p.lnsw (ix2 0 d)) (fun d => p.lnsb (ix2 0 d)))
          (fun d h => p.wqT (ix2 d h)) i j * MS.cScale := by
  unfold Spec.query k1_pay5
  simp only [matmul, mulf_apply, broadcast_apply, mm_apply dot_S16x256_S256x256_S16x256_1_0_0_1_n_n rfl, addf_apply,
    subf_apply, divf_apply, rsqrt_apply, broadcastTo_a1_ab_apply, broadcastTo_1b_ab_apply, shapeCast_a_a1_apply,
    shapeCast_self, rowSum_apply (a := 16) (b := 256)]
  rfl

theorem nextSlots_apply (p : Spec.Params Ideal) (s : Vec Ideal S16x256 .f32) (i : Fin 16) (j : Fin 256) :
    Spec.nextSlots p s (ix2 i j)
      = Spec.gru p s (ix2 i j) + ((∑ m : Fin 512,
          max ((∑ d : Fin 256, MS.ln MS.c256 (fun i d => Spec.gru p s (ix2 i d)) (fun d => p.lnmw (ix2 0 d)) (fun d => p.lnmb (ix2 0 d)) i d
                  * p.w1T (ix2 d m)) + p.b1 (ix2 0 m)) 0 * p.w2T (ix2 m j)) + p.b2 (ix2 0 j)) := by
  have h78 : ∀ i : Fin 16, k1_pay14 s (Spec.accAll p s).1 (Spec.accAll p s).2.2 p.wihT p.bih p.whhT p.bhh (ix2 i (0 : Fin 1))
      = MS.mean MS.c256 (fun i d => Spec.gru p s (ix2 i d)) i := fun i => by
    unfold k1_pay14
    simp only [divf_apply, broadcast_apply, shapeCast_a_a1_apply, rowSum_apply (a := 16) (b := 256)]
    rfl
  have h80 : ∀ (i : Fin 16) (d : Fin 256), k1_pay15 s (Spec.accAll p s).1 (Spec.accAll p s).2.2 p.wihT p.bih p.whhT p.bhh (ix2 i d)
      = MS.cen MS.c256 (fun i d => Spec.gru p s (ix2 i d)) i d := fun i d => by
    unfold k1_pay15
    simp only [subf_apply, broadcastTo_a1_ab_apply, h78]
    rfl
  unfold Spec.nextSlots k1_pay16
  simp only [matmul, mm_apply dot_S16x256_S256x512_S16x512_1_0_0_1_n_n rfl, mm_apply dot_S16x512_S512x256_S16x256_1_0_0_1_n_n rfl,
    maximumf_apply, mulf_apply, broadcast_apply, addf_apply, subf_apply,
    divf_apply, rsqrt_apply, broadcastTo_a1_ab_apply, broadcastTo_1b_ab_apply, shapeCast_a_a1_apply, shapeCast_self,
    rowSum_apply (a := 16) (b := 256), h78, h80, ofBits_zero]
  rfl

end Cert.Proof.KRead

end
-- ==== Proof.KReadGru.lean ====
import proofs.«128765_j37245956390967_2_alg».proof.Proof.KReadLN

noncomputable section

namespace Cert.Proof.KRead

open Idealize.ShloMosaic Idealize.ShloMosaic.ValueIdx Cert.KernelIdeal Cert.KernelIdeal.Gen Cert.Proof LN Finset

private theorem logistic_apply {s : Shape} {φ : FTy} (x : FVec Ideal s φ) (i : s.Idx) : logistic x i = Ideal.logistic (x i) := rfl
private theorem tanh_apply {s : Shape} {φ : FTy} (x : FVec Ideal s φ) (i : s.Idx) : tanh x i = Ideal.tanh (x i) := rfl
private theorem scalar_ofBits_f32 (b : BitVec 32) : (Scalar.ofBits (F := Ideal) .f32 b) = Ideal.ofBits .f32 b := rfl

private theorem csT_apply (cs : FVec Ideal S1x16 .f32) (h : S1x16.Transposes [1, 0] S16x1) (i : Fin 16) :
    transpose S16x1 [1, 0] cs h (ix2 i (0 : Fin 1)) = cs (ix2 (0 : Fin 1) i) :=
  transpose_ix2_apply cs h i 0

private theorem slice768_apply (off : ℕ) (hoff : off + 256 ≤ 768) (Y : FVec Ideal S16x768 .f32)
    (h : S16x768.Slices ![0, off] S16x256) (i : Fin 16) (j : Fin 256) :
    extractStridedSlice S16x256 ![0, off] Y h (ix2 i j) = Y (ix2 i (MS.col off hoff j)) :=
  slice2_axis1_apply off Y h i j (MS.col off hoff j) rfl

theorem gru_apply (a : MS.In) (s : Vec Ideal S16x256 .f32) (cs : Vec Ideal S1x16 .f32) (num : Vec Ideal S16x256 .f32)
    (wihT whhT : Vec Ideal S256x768 .f32) (bih bhh : Vec Ideal S1x768 .f32)
    (hwih : ∀ (d : Fin 256) (j : Fin 768), wihT (ix2 d j) = a.wih j d)
    (hwhh : ∀ (d : Fin 256) (j : Fin 768), whhT (ix2 d j) = a.whh j d)
    (hbih : ∀ j : Fin 768, bih (ix2 0 j) = a.bih j)
    (hbhh : ∀ j : Fin 768, bhh (ix2 0 j) = a.bhh j)
    (i : Fin 16) (j : Fin 256) :
    k1_pay13 s cs num wihT bih whhT bhh (ix2 i j)
      = MS.gru a (fun i d => Ideal.div (num (ix2 i d)) (cs (ix2 0 i))) (fun i d => s (ix2 i d)) i j := by
  unfold k1_pay13
  simp only [addf_apply, mulf_apply, subf_apply, divf_apply, broadcast_apply, logistic_apply, tanh_apply,
    slice768_apply 0 (by decide), slice768_apply 256 (by decide), slice768_apply 512 (by decide),
    shapeCast_self, matmul, mm_apply dot_S16x256_S256x768_S16x768_1_0_0_1_n_n rfl, broadcastTo_1b_ab_apply,
    broadcastTo_a1_ab_apply, csT_apply, hwih, hwhh, hbih, hbhh, scalar_ofBits_f32, MS.gru, MS.gi, MS.gh, MS.c1]
  rw [csT_apply]

theorem pay1_apply (cs sq : Vec Ideal S1x16 .f32) (acc : Vec Ideal S1x1 .f32) :
    k1_pay1 cs sq acc (ix2 0 0)
      = acc (ix2 0 0) + Ideal.div ((∑ i : Fin 16, Ideal.div (sq (ix2 0 i)) (cs (ix2 0 i) * cs (ix2 0 i))) - MS.cKN) MS.cNK1 := by
  unfold k1_pay1
  rw [shapeCast_self, addf_apply, divf_apply, subf_apply, broadcast_apply, broadcast_apply,
    shapeCast_a_1a_apply, rowSum_apply]
  rfl

theorem pay2_apply (v : Vec Ideal S1x1 .f32) : k1_pay2 v (ix2 0 0) = Ideal.div (v (ix2 0 0)) MS.c3 := rfl

theorem pay3_apply (x : Vec Ideal S16x256 .f32) (i : Fin 16) (j : Fin 256) : k1_pay3 x (ix2 i j) = x (ix2 i j) := by
  unfold k1_pay3
  rw [shapeCast_self]

theorem pay4_apply : (k1_pay4 (F := Ideal)) (ix2 0 0) = 0 := by
  unfold k1_pay4
  rw [shapeCast_self, broadcast_apply]
  exact Ideal.ofBits_zero_f32

end Cert.Proof.KRead

end
-- ==== Proof.KReadAttn.lean ====
import proofs.«128765_j37245956390967_2_alg».proof.Proof.KReadLN

noncomputable section

namespace Cert.Proof.KRead

open Idealize.ShloMosaic Idealize.ShloMosaic.ValueIdx Cert.KernelIdeal Cert.KernelIdeal.Gen LN Finset

theorem mm_av_apply (prec : Option ContractPrecision) (A : FVec Ideal S512x16 .f32) (B : FVec Ideal S512x256 .f32)
    (i : Fin 16) (h : Fin 256) :
    FloatOps.matmul dot_S512x16_S512x256_S16x256_0_0_1_1_n_n prec A B (constant (F := Ideal) S16x256 .f32 0x00000000#32) (ix2 i h)
      = ∑ y : Fin 512, A (ix2 y i) * B (ix2 y h) := by
  rw [Ideal.matmul_constant_zero_apply,
    ← Equiv.sum_comp (contrEquiv1 dot_S512x16_S512x256_S16x256_0_0_1_1_n_n 512 rfl rfl).symm]
  refine Finset.sum_congr rfl fun c _ => ?_
  have c2 := contrEquiv1_symm_val dot_S512x16_S512x256_S16x256_0_0_1_1_n_n 512 rfl rfl c
  have l2 : dot_S512x16_S512x256_S16x256_0_0_1_1_n_n.lhsIdx (ix2 i h) ((contrEquiv1 _ 512 rfl rfl).symm c) = ix2 c i :=
    funext fun ax => Fin.ext (by
      match ax with
      | ⟨0, _⟩ => exact c2
      | ⟨1, _⟩ => rfl)
  have r2 : dot_S512x16_S512x256_S16x256_0_0_1_1_n_n.rhsIdx (ix2 i h) ((contrEquiv1 _ 512 rfl rfl).symm c) = ix2 c h :=
    funext fun ax => Fin.ext (by
      match ax with
      | ⟨0, _⟩ => exact c2
      | ⟨1, _⟩ => rfl)
  rw [l2, r2]

theorem exp_apply {s : Shape} {φ : FTy} (x : FVec Ideal s φ) (i : s.Idx) : exp x i = Ideal.exp (x i) := rfl

-- A block of key rows against the queries: softmax over the queries, plus ε.
theorem pay9_apply {a : MS.In} {σ : MS.Slots} (q : Vec Ideal S16x256 .f32) (kc : Vec Ideal S512x256 .f32)
    (n : Fin 512 → Fin 16384) (hq : ∀ (i : Fin 16) (d : Fin 256), q (ix2 i d) = MS.q a σ i d)
    (hk : ∀ (y : Fin 512) (d : Fin 256), kc (ix2 y d) = MS.K a (n y) d) (y : Fin 512) (i : Fin 16) :
    k1_pay9 q kc (ix2 y i) = MS.attn a σ (n y) i := by
  unfold k1_pay9
  dsimp only
  generalize hA : matmul (φ₁ := .f32) (φ₂ := .f32) dot_S512x256_S256x16_S512x16_1_0_0_1_n_n (some .fp32)
      (shapeCast S512x256 kc shapeCasts_S512x256_S512x256) (transpose S256x16 [1, 0] q transposes_S16x256_p1_0_S256x16)
      (constant (F := Ideal) S512x16 .f32 0x00000000#32) = A
  have hL : ∀ i' : Fin 16, A (ix2 y i') = MS.logits a σ (n y) i' := fun i' => by
    rw [← hA, matmul, mm_apply dot_S512x256_S256x16_S512x16_1_0_0_1_n_n rfl, shapeCast_self]
    exact Finset.sum_congr rfl fun d _ => by rw [transpose_ix2_apply, hq, hk]
  rw [addf_apply, divf_apply, broadcast_apply, broadcastTo_a1_ab_apply, shapeCast_a_a1_apply, rowSum_apply]
  simp only [exp_apply, subf_apply, broadcastTo_a1_ab_apply, shapeCast_a_a1_apply, maximumf_apply, broadcast_apply]
  rw [rowMax_apply]
  simp only [hL]
  rfl

theorem pay10_apply (q : Vec Ideal S16x256 .f32) (acc : Vec Ideal S1x16 .f32) (kc : Vec Ideal S512x256 .f32) (i : Fin 16) :
    k1_pay10 q acc kc (ix2 0 i) = acc (ix2 0 i) + ∑ y : Fin 512, k1_pay9 q kc (ix2 y i) := by
  unfold k1_pay10
  dsimp only
  rw [addf_apply, shapeCast_a_1a_apply, colSum_apply]

theorem pay11_apply (q : Vec Ideal S16x256 .f32) (acc : Vec Ideal S1x16 .f32) (kc : Vec Ideal S512x256 .f32) (i : Fin 16) :
    k1_pay11 q acc kc (ix2 0 i) = acc (ix2 0 i) + ∑ y : Fin 512, k1_pay9 q kc (ix2 y i) * k1_pay9 q kc (ix2 y i) := by
  unfold k1_pay11
  dsimp only
  rw [addf_apply, shapeCast_a_1a_apply, colSum_apply]
  rfl

theorem pay12_apply (q : Vec Ideal S16x256 .f32) (acc : Vec Ideal S16x256 .f32) (kc vc : Vec Ideal S512x256 .f32)
    (i : Fin 16) (h : Fin 256) :
    k1_pay12 q acc kc vc (ix2 i h) = acc (ix2 i h) + ∑ y : Fin 512, k1_pay9 q kc (ix2 y i) * vc (ix2 y h) := by
  unfold k1_pay12
  rw [addf_apply, matmul, mm_av_apply, shapeCast_self]

def chunkRow (k : Fin 32) (y : Fin 512) : Fin 16384 := ⟨512 * k.val + y.val, by have := k.isLt; have := y.isLt; omega⟩

theorem ld_chunk (X : Vec Ideal S16384x256 .f32) (k : Fin k1_t1_loop.trips) (y : Fin 512) (d : Fin 256) :
    (View.ld X (Spec.chunkRect k) : Vec Ideal S512x256 .f32) (ix2 y d) = X (ix2 (chunkRow k y) d) := by
  show X ((Spec.chunkRect k).idx (ix2 y d)) = _
  congr 1
  funext a; apply Fin.ext
  match a with
  | ⟨0, _⟩ =>
    show (k1_off1 k) 0 + 1 * y.val = 512 * k.val + y.val
    rw [k1_off1_eq]
    show 512 * k.val + 1 * y.val = _
    omega
  | ⟨1, _⟩ =>
    show (k1_off1 k) 1 + 1 * d.val = d.val
    rw [k1_off1_eq]
    show 0 + 1 * d.val = d.val
    omega

def chunkSum {A : Type} [AddCommMonoid A] (f : Fin 16384 → A) (k : ℕ) : A :=
  if h : k < 32 then ∑ y : Fin 512, f (chunkRow ⟨k, h⟩ y) else 0

-- Thirty-two blocks of 512 rows tile the 16384 rows.
theorem sum_chunkSum {A : Type} [AddCommMonoid A] (f : Fin 16384 → A) :
    ∑ k ∈ Finset.range 32, chunkSum f k = ∑ n : Fin 16384, f n := by
  rw [Finset.sum_range (fun k => chunkSum f k)]
  have e : ∀ k : Fin 32, chunkSum f k.val = ∑ y : Fin 512, f (chunkRow k y) := fun k => dif_pos k.isLt
  simp only [e]
  rw [← Fintype.sum_prod_type' (fun (k : Fin 32) (y : Fin 512) => f (chunkRow k y))]
  refine Fintype.sum_equiv (finProdFinEquiv (m := 32) (n := 512)) _ _ fun x => ?_
  congr 1
  apply Fin.ext
  show 512 * x.1.val + x.2.val = x.2.val + 512 * x.1.val
  omega

section Fold
variable (p : Spec.Params Ideal) (s : Vec Ideal S16x256 .f32) (a : MS.In) (sl : MS.Slots)
  (hq : ∀ (i : Fin 16) (d : Fin 256), Spec.query p s (ix2 i d) = MS.q a sl i d)
  (hk : ∀ (n : Fin 16384) (d : Fin 256), p.kk (ix2 n d) = MS.K a n d)
include hq hk

-- Before block m the three accumulators hold the three sums over the blocks below m.
theorem accBefore_eq (m : ℕ) (hm : m ≤ 32) :
    (∀ i : Fin 16, (Spec.accBefore p s m).1 (ix2 0 i) = ∑ k ∈ Finset.range m, chunkSum (fun n => MS.attn a sl n i) k) ∧
    (∀ i : Fin 16, (Spec.accBefore p s m).2.1 (ix2 0 i)
        = ∑ k ∈ Finset.range m, chunkSum (fun n => MS.attn a sl n i * MS.attn a sl n i) k) ∧
    (∀ (i : Fin 16) (h : Fin 256), (Spec.accBefore p s m).2.2 (ix2 i h)
        = ∑ k ∈ Finset.range m, chunkSum (fun n => MS.attn a sl n i * p.vv (ix2 n h)) k) := by
  induction m with
  | zero => exact ⟨fun i => Ideal.ofBits_zero_f32, fun i => Ideal.ofBits_zero_f32, fun i h => Ideal.ofBits_zero_f32⟩
  | succ m ih =>
    obtain ⟨ih1, ih2, ih3⟩ := ih (by omega)
    have hm' : m < 32 := by omega
    have step : Spec.accBefore p s (m + 1)
        = Spec.chunkStep p s (View.ld p.kk (Spec.chunkRect ⟨m, hm'⟩)) (View.ld p.vv (Spec.chunkRect ⟨m, hm'⟩))
            (Spec.accBefore p s m) := dif_pos hm'
    have h9 : ∀ (y : Fin 512) (i : Fin 16), k1_pay9 (Spec.query p s) (View.ld p.kk (Spec.chunkRect ⟨m, hm'⟩)) (ix2 y i)
        = MS.attn a sl (chunkRow ⟨m, hm'⟩ y) i :=
      pay9_apply _ _ _ hq fun y d => (ld_chunk p.kk ⟨m, hm'⟩ y d).trans (hk _ d)
    have cs : ∀ {A : Type} [AddCommMonoid A] (f : Fin 16384 → A),
        chunkSum f m = ∑ y : Fin 512, f (chunkRow ⟨m, hm'⟩ y) := fun f => dif_pos hm'
    refine ⟨fun i => ?_, fun i => ?_, fun i h => ?_⟩
    · rw [Finset.sum_range_succ, ← ih1 i, cs, step]
      exact (pay10_apply _ _ _ i).trans (congrArg _ (Finset.sum_congr rfl fun y _ => h9 y i))
    · rw [Finset.sum_range_succ, ← ih2 i, cs, step]
      exact (pay11_apply _ _ _ i).trans (congrArg _ (Finset.sum_congr rfl fun y _ => by rw [h9]))
    · rw [Finset.sum_range_succ, ← ih3 i h, cs, step]
      exact (pay12_apply _ _ _ _ i h).trans (congrArg _ (Finset.sum_congr rfl fun y _ =>
        congrArg₂ (· * ·) (h9 y i) (ld_chunk p.vv _ y h)))

theorem accAll_colsum_eq (i : Fin 16) : (Spec.accAll p s).1 (ix2 0 i) = MS.colsum a sl i :=
  ((accBefore_eq p s a sl hq hk 32 le_rfl).1 i).trans (sum_chunkSum _)

theorem accAll_sumsq_eq (i : Fin 16) : (Spec.accAll p s).2.1 (ix2 0 i) = MS.sumsq a sl i :=
  ((accBefore_eq p s a sl hq hk 32 le_rfl).2.1 i).trans (sum_chunkSum _)

theorem accAll_numer_eq (hv : ∀ (n : Fin 16384) (h : Fin 256), p.vv (ix2 n h) = MS.V a n h) (i : Fin 16) (h : Fin 256) :
    (Spec.accAll p s).2.2 (ix2 i h) = MS.numer a sl i h :=
  ((accBefore_eq p s a sl hq hk 32 le_rfl).2.2 i h).trans
    ((sum_chunkSum _).trans (Finset.sum_congr rfl fun n _ => congrArg (_ * ·) (hv n h)))

end Fold

end Cert.Proof.KRead

end
-- ==== Proof.KReadAll.lean ====
import proofs.«128765_j37245956390967_2_alg».proof.Proof.KReadGru
import proofs.«128765_j37245956390967_2_alg».proof.Proof.KReadAttn

noncomputable section

namespace Cert.Proof.KRead

open Idealize.ShloMosaic Idealize.ShloMosaic.ValueIdx Cert.KernelIdeal Cert.KernelIdeal.Gen Cert.Proof Finset

-- One iteration reads as the plain-mathematics iteration; the slots and the variance terms follow by induction.
theorem kernel_reads (a : MS.In) (p : Spec.Params Ideal) (s0 : Vec Ideal S16x256 .f32)
    (hkk : ∀ (n : Fin 16384) (d : Fin 256), p.kk (ix2 n d) = MS.K a n d)
    (hvv : ∀ (n : Fin 16384) (d : Fin 256), p.vv (ix2 n d) = MS.V a n d)
    (hwq : ∀ (d h : Fin 256), p.wqT (ix2 d h) = a.wq h d)
    (hlnsw : ∀ j : Fin 256, p.lnsw (ix2 0 j) = a.lnsw j)
    (hlnsb : ∀ j : Fin 256, p.lnsb (ix2 0 j) = a.lnsb j)
    (hwih : ∀ (d : Fin 256) (j : Fin 768), p.wihT (ix2 d j) = a.wih j d)
    (hwhh : ∀ (d : Fin 256) (j : Fin 768), p.whhT (ix2 d j) = a.whh j d)
    (hbih : ∀ j : Fin 768, p.bih (ix2 0 j) = a.bih j)
    (hbhh : ∀ j : Fin 768, p.bhh (ix2 0 j) = a.bhh j)
    (hlnmw : ∀ j : Fin 256, p.lnmw (ix2 0 j) = a.lnmw j)
    (hlnmb : ∀ j : Fin 256, p.lnmb (ix2 0 j) = a.lnmb j)
    (hw1 : ∀ (d : Fin 256) (m : Fin 512), p.w1T (ix2 d m) = a.w1 m d)
    (hb1 : ∀ m : Fin 512, p.b1 (ix2 0 m) = a.b1 m)
    (hw2 : ∀ (m : Fin 512) (j : Fin 256), p.w2T (ix2 m j) = a.w2 j m)
    (hb2 : ∀ j : Fin 256, p.b2 (ix2 0 j) = a.b2 j)
    (hs0 : ∀ (i : Fin 16) (j : Fin 256), s0 (ix2 i j) = a.s0 i j) :
    (∀ (n : ℕ) (i : Fin 16) (j : Fin 256), Spec.slotsAt p s0 n (ix2 i j) = MS.slotsK a n i j)
      ∧ Spec.outVar p s0 (ix2 0 0) = MS.outVarK a := by
  have iter : ∀ (s : Vec Ideal S16x256 .f32) (σ : MS.Slots), (∀ (i : Fin 16) (j : Fin 256), s (ix2 i j) = σ i j) →
      (∀ (i : Fin 16) (j : Fin 256), Spec.nextSlots p s (ix2 i j) = MS.nextK a σ i j)
        ∧ ∀ acc : Vec Ideal S1x1 .f32, Spec.nextVar p s acc (ix2 0 0) = acc (ix2 0 0) + MS.varK a σ := by
    intro s σ hs
    have hq : ∀ (i : Fin 16) (j : Fin 256), Spec.query p s (ix2 i j) = MS.q a σ i j := fun i j => by
      rw [query_apply]
      simp only [hs, hlnsw, hlnsb, hwq]
      rfl
    have hc := accAll_colsum_eq p s a σ hq hkk
    have hn := accAll_numer_eq p s a σ hq hkk hvv
    have hg : ∀ (i : Fin 16) (j : Fin 256), Spec.gru p s (ix2 i j) = MS.gru a (MS.updK a σ) σ i j := fun i j => by
      unfold Spec.gru
      rw [gru_apply a s _ _ _ _ _ _ hwih hwhh hbih hbhh]
      simp only [hn, hc, hs]
      rfl
    refine ⟨fun i j => ?_, fun acc => ?_⟩
    · rw [nextSlots_apply]
      simp only [hg, hlnmw, hlnmb, hw1, hb1, hw2, hb2]
      rfl
    · unfold Spec.nextVar
      rw [pay1_apply]
      simp only [hc, accAll_sumsq_eq p s a σ hq hkk]
      rfl
  have sl : ∀ (n : ℕ) (i : Fin 16) (j : Fin 256), Spec.slotsAt p s0 n (ix2 i j) = MS.slotsK a n i j := fun n => by
    induction n with
    | zero => exact fun i j => (pay3_apply s0 i j).trans (hs0 i j)
    | succ n ih => exact (iter _ _ ih).1
  have v : ∀ n : ℕ, Spec.varAt p s0 (n + 1) (ix2 0 0) = Spec.varAt p s0 n (ix2 0 0) + MS.varK a (MS.slotsK a n) :=
    fun n => (iter _ _ (sl n)).2 _
  refine ⟨sl, ?_⟩
  unfold Spec.outVar
  rw [pay2_apply, v 2, v 1, v 0, show Spec.varAt p s0 0 (ix2 0 0) = 0 from pay4_apply, zero_add]
  rfl

end Cert.Proof.KRead

end
-- ==== Proof.Glue.lean ====
import proofs.«128765_j37245956390967_2_alg».proof.Proof.MSpec
import Idealize.ShloMosaic.Lib.Pipeline.Value
import Idealize.ShloMosaic.Lib.ValueIdx

noncomputable section

namespace Cert.Proof.Glue

open Idealize.ShloMosaic Idealize.ShloMosaic.ValueIdx

/-- A vector of any length can be given a leading unit axis. -/
theorem bcast_ok (n : ℕ) : (⟨1, ![n]⟩ : Shape).BroadcastsInDim ⟨2, ![1, n]⟩ ![1] :=
  ⟨Function.injective_of_subsingleton _, fun a => match a with | ⟨0, _⟩ => Or.inr rfl⟩

/-- It then reads, at (0, d), the vector at d. -/
theorem bcast_apply {α : Type} {n : ℕ} (w : (⟨1, ![n]⟩ : Shape).Idx → α) (d : Fin n) :
    broadcastInDim ⟨2, ![1, n]⟩ ![1] (bcast_ok n) w (ix2 0 d) = w (ix1 d) :=
  broadcastInDim_apply _ _ w _ _ fun a => match a with
    | ⟨0, _⟩ => by
      show d.val = if n = 1 then 0 else d.val
      have := d.isLt
      split <;> omega

/-- A row of the product of a layer norm with a matrix depends on that row of the operand only. -/
theorem mm_ln_row {r r' n c : ℕ} (N : EReal) (x : Fin r → Fin n → EReal) (y : Fin r' → Fin n → EReal) (w b : Fin n → EReal)
    (i : Fin r) (p : Fin r') (h : ∀ d, y p d = x i d) (B : Fin n → Fin c → EReal) (hc : Fin c) :
    MS.mm (MS.ln N y w b) B p hc = MS.mm (MS.ln N x w b) B i hc := by
  simp only [MS.mm, MS.ln, MS.cen, MS.var, MS.mean, show y p = x i from funext h]

end Cert.Proof.Glue

end
-- ==== Proof.KBridge.lean ====
import proofs.«128765_j37245956390967_2_alg».proof.Proof.ResI
import proofs.«128765_j37245956390967_2_alg».proof.Proof.PreReal
import proofs.«128765_j37245956390967_2_alg».proof.Proof.KReadAll
import proofs.«128765_j37245956390967_2_alg».proof.Proof.Glue
import Idealize.ShloMosaic.Lib.ValueLayout

noncomputable section

namespace Cert.Proof.KB

open Idealize.ShloMosaic Idealize.SL.Sem Idealize.ShloMosaic.ValueIdx Cert.KernelIdeal Cert.KernelIdeal.Facts₀ Finset

/-- Row n of the key array is the layer-normalised row n of the inputs times the transposed key weights: row n is row n mod 1024 of row block n / 1024, and a block's layer norm and product go row by row. -/
theorem kArr_read (X : Vec Ideal S16384x768 .f32) (w b : Vec Ideal S1x768 .f32) (wkT : Vec Ideal S768x256 .f32)
    (n : Fin 16384) (d : Fin 256) :
    Arr.kArr X w b wkT (ix2 n d)
      = MS.mm (MS.ln MS.c768 (fun i k => X (ix2 i k)) (fun k => w (ix2 0 k)) (fun k => b (ix2 0 k)))
          (fun k h => wkT (ix2 k h)) n d := by
  have hn := n.isLt
  rw [Arr.kArr_at X w b wkT ⟨n.val / 1024, by omega⟩ (ix2 ⟨n.val % 1024, Nat.mod_lt _ (by norm_num)⟩ d) (ix2 n d)
    (by show n.val = 1024 * (n.val / 1024) + n.val % 1024; omega) rfl, KRead.kBlock_apply]
  refine Glue.mm_ln_row MS.c768 (fun i k => X (ix2 i k)) _ _ _ n _ (fun k' => ?_) _ d
  show X (ix2 ⟨1024 * (n.val / 1024) + n.val % 1024, _⟩ k') = X (ix2 n k')
  congr 2
  exact Fin.ext (by show 1024 * (n.val / 1024) + n.val % 1024 = n.val; omega)

/-- The value array likewise. -/
theorem vArr_read (X : Vec Ideal S16384x768 .f32) (w b : Vec Ideal S1x768 .f32) (wvT : Vec Ideal S768x256 .f32)
    (n : Fin 16384) (d : Fin 256) :
    Arr.vArr X w b wvT (ix2 n d)
      = MS.mm (MS.ln MS.c768 (fun i k => X (ix2 i k)) (fun k => w (ix2 0 k)) (fun k => b (ix2 0 k)))
          (fun k h => wvT (ix2 k h)) n d := by
  have hn := n.isLt
  rw [Arr.vArr_at X w b wvT ⟨n.val / 1024, by omega⟩ (ix2 ⟨n.val % 1024, Nat.mod_lt _ (by norm_num)⟩ d) (ix2 n d)
    (by show n.val = 1024 * (n.val / 1024) + n.val % 1024; omega) rfl, KRead.vBlock_apply]
  refine Glue.mm_ln_row MS.c768 (fun i k => X (ix2 i k)) _ _ _ n _ (fun k' => ?_) _ d
  show X (ix2 ⟨1024 * (n.val / 1024) + n.val % 1024, _⟩ k') = X (ix2 n k')
  congr 2
  exact Fin.ext (by show 1024 * (n.val / 1024) + n.val % 1024 = n.val; omega)

/-- Read at indices the second call's operands are the keys, values and weights of the nineteen inputs, so its two results are the slots after three iterations and the mean of the three variance terms. -/
theorem kernel_side (m : PR.Mem) (c : Dev nD) :
    (∀ (i : Fin 16) (j : Fin 256), Spec.outSlots (Res.Pm m c) (PR.arg7 m c) (ix2 i j) = MS.slotsK (PR.inOfK m c) 3 i j)
      ∧ Spec.outVar (Res.Pm m c) (PR.arg7 m c) (ix2 0 0) = MS.outVarK (PR.inOfK m c) := by
  have hw : (fun k => broadcastInDim S1x768 ![1] bcast_S768_S1x768_1 (PR.arg1 m c) (ix2 0 k)) = (PR.inOfK m c).lniw :=
    funext fun k => Glue.bcast_apply _ k
  have hb : (fun k => broadcastInDim S1x768 ![1] bcast_S768_S1x768_1 (PR.arg2 m c) (ix2 0 k)) = (PR.inOfK m c).lnib :=
    funext fun k => Glue.bcast_apply _ k
  have H := KRead.kernel_reads (PR.inOfK m c) (Res.Pm m c) (PR.arg7 m c)
    (fun n d => by
      show Arr.kArr _ _ _ _ (ix2 n d) = _
      rw [kArr_read, hw, hb]
      unfold MS.K MS.xln MS.mm
      exact Finset.sum_congr rfl fun k _ => congrArg (_ * ·) (transpose_ix2_apply _ _ k d))
    (fun n d => by
      show Arr.vArr _ _ _ _ (ix2 n d) = _
      rw [vArr_read, hw, hb]
      unfold MS.V MS.xln MS.mm
      exact Finset.sum_congr rfl fun k _ => congrArg (_ * ·) (transpose_ix2_apply _ _ k d))
    (fun d h => transpose_ix2_apply _ _ d h)
    (fun j => Glue.bcast_apply _ j) (fun j => Glue.bcast_apply _ j)
    (fun d j => transpose_ix2_apply _ _ d j) (fun d j => transpose_ix2_apply _ _ d j)
    (fun j => Glue.bcast_apply _ j) (fun j => Glue.bcast_apply _ j)
    (fun j => Glue.bcast_apply _ j) (fun j => Glue.bcast_apply _ j)
    (fun d k => transpose_ix2_apply _ _ d k) (fun k => Glue.bcast_apply _ k)
    (fun k j => transpose_ix2_apply _ _ k j) (fun j => Glue.bcast_apply _ j)
    (fun i j => rfl)
  exact ⟨fun i j => H.1 3 i j, H.2⟩

end Cert.Proof.KB

end
-- ==== Proof.MConsts.lean ====
import proofs.«128765_j37245956390967_2_alg».proof.Proof.MSpec

noncomputable section

namespace Cert.Proof.MC

open Idealize.ShloMosaic

theorem c768_pos : ∃ t : ℝ, 0 < t ∧ MS.c768 = t :=
  ⟨768, by norm_num, by simp [MS.c768, Ideal.ofBits, Ideal.ieee, -EReal.coe_mul]; norm_num⟩
theorem c256_pos : ∃ t : ℝ, 0 < t ∧ MS.c256 = t :=
  ⟨256, by norm_num, by simp [MS.c256, Ideal.ofBits, Ideal.ieee, -EReal.coe_mul]; norm_num⟩
theorem cScale_pos : ∃ t : ℝ, 0 < t ∧ MS.cScale = t :=
  ⟨1 / 16, by norm_num, by simp [MS.cScale, Ideal.ofBits, Ideal.ieee, -EReal.coe_mul]; norm_num⟩
theorem c1_pos : ∃ t : ℝ, 0 < t ∧ MS.c1 = t :=
  ⟨1, by norm_num, by simp [MS.c1, Ideal.ofBits, Ideal.ieee, -EReal.coe_mul]; norm_num⟩
theorem epsLN_pos : ∃ t : ℝ, 0 < t ∧ MS.epsLN = t :=
  ⟨10995116 * 2 ^ (-40 : ℤ), by positivity, by simp [MS.epsLN, Ideal.ofBits, Ideal.ieee, -EReal.coe_mul]⟩
theorem epsAttn_pos : ∃ t : ℝ, 0 < t ∧ MS.epsAttn = t :=
  ⟨11258999 * 2 ^ (-50 : ℤ), by positivity, by simp [MS.epsAttn, Ideal.ofBits, Ideal.ieee, -EReal.coe_mul]⟩
theorem cKN_eq : MS.cKN = ((1 / 1024 : ℝ) : EReal) := by
  simp [MS.cKN, Ideal.ofBits, Ideal.ieee, -EReal.coe_mul]; norm_num
theorem cNK1_eq : MS.cNK1 = ((262143 : ℝ) : EReal) := by
  simp [MS.cNK1, Ideal.ofBits, Ideal.ieee, -EReal.coe_mul]; norm_num
theorem cNK_eq : MS.cNK = ((262144 : ℝ) : EReal) := by
  simp [MS.cNK, Ideal.ofBits, Ideal.ieee, -EReal.coe_mul]; norm_num
theorem cNegInf_eq : MS.cNegInf = ⊥ := by
  simp [MS.cNegInf, Ideal.ofBits, Ideal.ieee]

end Cert.Proof.MC

end
-- ==== Proof.MathReal.lean ====
import proofs.«128765_j37245956390967_2_alg».proof.Proof.MConsts
import Mathlib.Analysis.SpecialFunctions.Exp
import Mathlib.Analysis.SpecialFunctions.Sqrt

noncomputable section

namespace Cert.Proof.MR

open Idealize.ShloMosaic Finset

def IsR (x : EReal) : Prop := ∃ t : ℝ, x = t
def IsPos (x : EReal) : Prop := ∃ t : ℝ, 0 < t ∧ x = t

theorem IsPos.isR {x : EReal} (h : IsPos x) : IsR x := let ⟨t, _, e⟩ := h; ⟨t, e⟩
theorem IsR.zero : IsR 0 := ⟨0, rfl⟩

theorem IsR.add {x y : EReal} (hx : IsR x) (hy : IsR y) : IsR (x + y) := by
  obtain ⟨s, rfl⟩ := hx; obtain ⟨t, rfl⟩ := hy; exact ⟨s + t, rfl⟩
theorem IsR.sub {x y : EReal} (hx : IsR x) (hy : IsR y) : IsR (x - y) := by
  obtain ⟨s, rfl⟩ := hx; obtain ⟨t, rfl⟩ := hy; exact ⟨s - t, rfl⟩
theorem IsR.mul {x y : EReal} (hx : IsR x) (hy : IsR y) : IsR (x * y) := by
  obtain ⟨s, rfl⟩ := hx; obtain ⟨t, rfl⟩ := hy; exact ⟨s * t, rfl⟩
theorem IsR.max {x y : EReal} (hx : IsR x) (hy : IsR y) : IsR (max x y) := by
  obtain ⟨s, rfl⟩ := hx; obtain ⟨t, rfl⟩ := hy; exact ⟨_, (EReal.coe_strictMono.monotone.map_max).symm⟩
theorem IsR.sum {ι : Type*} (s : Finset ι) (f : ι → EReal) (hf : ∀ i ∈ s, IsR (f i)) : IsR (∑ i ∈ s, f i) :=
  sum_induction f IsR (fun _ _ => IsR.add) IsR.zero hf
theorem coe_sum {ι : Type*} (s : Finset ι) (f : ι → ℝ) : ((∑ i ∈ s, f i : ℝ) : EReal) = ∑ i ∈ s, (f i : EReal) :=
  map_sum (⟨⟨(↑), EReal.coe_zero⟩, EReal.coe_add⟩ : ℝ →+ EReal) f s
theorem div_coe_coe (x y : ℝ) (hy : y ≠ 0) : Ideal.div (x : EReal) (y : EReal) = ((x / y : ℝ) : EReal) := by
  rw [Ideal.div_coe hy, ← EReal.coe_mul, mul_one_div]
theorem IsR.div_pos {x y : EReal} (hx : IsR x) (hy : IsPos y) : IsR (Ideal.div x y) := by
  obtain ⟨s, rfl⟩ := hx; obtain ⟨t, ht, rfl⟩ := hy; exact ⟨_, div_coe_coe _ _ ht.ne'⟩
theorem IsR.rsqrt {x : EReal} (hx : IsPos x) : IsR (Ideal.rsqrt x) := by
  obtain ⟨t, ht, rfl⟩ := hx
  rw [Ideal.rsqrt_coe, if_neg (not_lt.mpr ht.le), if_neg ht.ne']; exact ⟨_, rfl⟩
theorem IsPos.exp {x : EReal} (hx : IsR x) : IsPos (Ideal.exp x) := by
  obtain ⟨t, rfl⟩ := hx; exact ⟨_, t.exp_pos, Ideal.exp_coe t⟩
theorem IsR.tanh {x : EReal} (hx : IsR x) : IsR (Ideal.tanh x) := by
  obtain ⟨t, rfl⟩ := hx; exact ⟨_, Ideal.tanh_coe t⟩
theorem IsR.logistic {x : EReal} (hx : IsR x) : IsR (Ideal.logistic x) := by
  obtain ⟨t, rfl⟩ := hx; exact ⟨_, Ideal.logistic_coe t⟩
theorem IsPos.add {x y : EReal} (hx : IsPos x) (hy : IsPos y) : IsPos (x + y) := by
  obtain ⟨s, hs, rfl⟩ := hx; obtain ⟨t, ht, rfl⟩ := hy; exact ⟨s + t, _root_.add_pos hs ht, rfl⟩
theorem IsPos.div {x y : EReal} (hx : IsPos x) (hy : IsPos y) : IsPos (Ideal.div x y) := by
  obtain ⟨s, hs, rfl⟩ := hx; obtain ⟨t, ht, rfl⟩ := hy; exact ⟨_, _root_.div_pos hs ht, div_coe_coe _ _ ht.ne'⟩
theorem IsPos.sum {ι : Type*} (s : Finset ι) (hs : s.Nonempty) (f : ι → EReal) (hf : ∀ i ∈ s, IsPos (f i)) :
    IsPos (∑ i ∈ s, f i) :=
  sum_induction_nonempty f IsPos (fun _ _ => IsPos.add) hs hf
-- The fold lies strictly between −∞ (it dominates a real entry) and +∞ (every entry is below it).
theorem IsR.fold_max {ι : Type*} (s : Finset ι) (hs : s.Nonempty) (f : ι → EReal) (hf : ∀ i ∈ s, IsR (f i)) :
    IsR (s.fold Max.max ⊥ f) := by
  obtain ⟨i, hi⟩ := hs
  obtain ⟨t, e⟩ := hf i hi
  have h1 : s.fold Max.max ⊥ f < ⊤ := (fold_max_lt _).mpr ⟨bot_lt_top, fun j hj => by
    obtain ⟨u, e⟩ := hf j hj; rw [e]; exact EReal.coe_lt_top u⟩
  have h2 : ⊥ < s.fold Max.max ⊥ f :=
    (e ▸ EReal.bot_lt_coe t : ⊥ < f i).trans_le ((le_fold_max _).mpr (Or.inr ⟨i, hi, le_rfl⟩))
  exact ⟨_, (EReal.coe_toReal h1.ne h2.ne').symm⟩

section Generic
variable {r n c : ℕ}

theorem mm_real {A : Fin r → Fin n → EReal} {B : Fin n → Fin c → EReal} (hA : ∀ i k, IsR (A i k))
    (hB : ∀ k j, IsR (B k j)) (i j) : IsR (MS.mm A B i j) :=
  IsR.sum _ _ fun k _ => (hA i k).mul (hB k j)
-- An affine map of reals: the shape of every gate and of both layers of the MLP.
theorem lin_real {u : Fin r → Fin n → EReal} {W : Fin c → Fin n → EReal} {b : Fin c → EReal} (hu : ∀ i d, IsR (u i d))
    (hW : ∀ j d, IsR (W j d)) (hb : ∀ j, IsR (b j)) (i j) : IsR ((∑ d, u i d * W j d) + b j) :=
  (IsR.sum _ _ fun d _ => (hu i d).mul (hW j d)).add (hb j)

variable {N : EReal} (hN : IsPos N) {x : Fin r → Fin n → EReal} (hx : ∀ i j, IsR (x i j))
include hN hx

theorem cen_real (i j) : IsR (MS.cen N x i j) :=
  (hx i j).sub ((IsR.sum _ _ fun k _ => hx i k).div_pos hN)
-- The variance is a sum of squares over a positive count, so the argument of the reciprocal root is positive.
theorem var_eps_pos (i) : IsPos (MS.var N x i + MS.epsLN) := by
  choose t ht using (cen_real hN hx i : ∀ j, ∃ t : ℝ, MS.cen N x i j = t)
  obtain ⟨n, hn, rfl⟩ := hN; obtain ⟨e, he, he'⟩ := MC.epsLN_pos
  refine ⟨(∑ k, t k * t k) / n + e,
    add_pos_of_nonneg_of_pos (div_nonneg (sum_nonneg fun k _ => mul_self_nonneg _) hn.le) he, ?_⟩
  unfold MS.var; simp only [ht, he', ← EReal.coe_mul, ← coe_sum, div_coe_coe _ _ hn.ne', EReal.coe_add]
theorem ln_real {w b : Fin n → EReal} (hw : ∀ j, IsR (w j)) (hb : ∀ j, IsR (b j)) (i j) :
    IsR (MS.ln N x w b i j) :=
  (((cen_real hN hx i j).mul (IsR.rsqrt (var_eps_pos hN hx i))).mul (hw j)).add (hb j)

end Generic

variable {a : MS.In} (h : a.Real)
include h

theorem K_real (n d) : IsR (MS.K a n d) :=
  mm_real (ln_real MC.c768_pos h.x h.lniw h.lnib) (fun k j => h.wk j k) n d
theorem V_real (n d) : IsR (MS.V a n d) :=
  mm_real (ln_real MC.c768_pos h.x h.lniw h.lnib) (fun k j => h.wv j k) n d

section Step
variable {σ : MS.Slots} (hσ : ∀ i j, IsR (σ i j))
include hσ

theorem logits_real (n i) : IsR (MS.logits a σ n i) :=
  IsR.sum _ _ fun d _ => (K_real h n d).mul
    ((mm_real (ln_real MC.c256_pos hσ h.lnsw h.lnsb) (fun k j => h.wq j k) i d).mul (IsPos.isR MC.cScale_pos))
-- A quotient of positive exponentials plus a positive epsilon.
theorem attn_pos (n i) : IsPos (MS.attn a σ n i) := by
  have hm : IsR (MS.rowMax (MS.logits a σ) n) := by
    unfold MS.rowMax; rw [MC.cNegInf_eq, max_bot_left]
    exact IsR.fold_max _ univ_nonempty _ fun i _ => logits_real h hσ n i
  have he : ∀ i, IsPos (MS.ex a σ n i) := fun i => IsPos.exp ((logits_real h hσ n i).sub hm)
  exact ((he i).div (IsPos.sum _ univ_nonempty _ fun i _ => he i)).add MC.epsAttn_pos
theorem updK_real (i d) : IsR (MS.updK a σ i d) :=
  (IsR.sum _ _ fun n _ => (attn_pos h hσ n i).isR.mul (V_real h n d)).div_pos
    (IsPos.sum _ univ_nonempty _ fun n _ => attn_pos h hσ n i)
theorem gru_real {u : MS.Slots} (hu : ∀ i j, IsR (u i j)) (i j) : IsR (MS.gru a u σ i j) := by
  have G : ∀ j, IsR (MS.gi a u i j) := lin_real hu h.wih h.bih i
  have H : ∀ j, IsR (MS.gh a σ i j) := lin_real hσ h.whh h.bhh i
  have Z := fun j => IsR.logistic ((G j).add (H j))
  exact (((IsPos.isR MC.c1_pos).sub (Z _)).mul (IsR.tanh ((G _).add ((Z _).mul (H _))))).add ((Z _).mul (hσ i j))

end Step

theorem mlp_real {g : MS.Slots} (hg : ∀ i j, IsR (g i j)) (i j) : IsR (MS.mlp a g i j) := by
  have hh : ∀ i m, IsR (MS.hid a g i m) := fun i m =>
    (lin_real (ln_real MC.c256_pos hg h.lnmw h.lnmb) h.w1 h.b1 i m).max IsR.zero
  exact (hg i j).add (lin_real hh h.w2 h.b2 i j)
theorem slotsK_real (n : ℕ) : ∀ i j, IsR (MS.slotsK a n i j) := by
  induction n with
  | zero => exact h.s0
  | succ n ih => exact mlp_real h (gru_real h ih (updK_real h ih))

end Cert.Proof.MR

end
-- ==== Proof.MathEq.lean ====
import proofs.«128765_j37245956390967_2_alg».proof.Proof.MathReal
import Mathlib.Algebra.BigOperators.Field
import Mathlib.Algebra.Order.BigOperators.Group.Finset
import Mathlib.Tactic.Ring
import Mathlib.Tactic.NormNum

noncomputable section

namespace Cert.Proof.ME

open Idealize.ShloMosaic Finset MR

-- Dividing the weighted sum by the total weight is summing with the weights divided first.
theorem upd_eq {A Vh : Fin 16384 → EReal} (hA : ∀ n, ∃ t : ℝ, 0 < t ∧ A n = t) (hV : ∀ n, ∃ t : ℝ, Vh n = t) :
    Ideal.div (∑ n, A n * Vh n) (∑ n, A n) = ∑ n, Ideal.div (A n) (∑ m, A m) * Vh n := by
  choose t ht0 htA using hA
  choose v hv using hV
  have hS : (∑ n, t n) ≠ 0 := (sum_pos (fun n _ => ht0 n) univ_nonempty).ne'
  simp only [htA, hv, ← EReal.coe_mul, ← coe_sum, div_coe_coe _ _ hS]
  rw [sum_div]; exact congrArg _ (sum_congr rfl fun n _ => by ring)

theorem sum_sq_dev (w : Fin 16384 → Fin 16 → ℝ) (μ : ℝ) :
    (∑ n, ∑ i, (w n i - μ) * (w n i - μ))
      = (∑ n, ∑ i, w n i * w n i) - 2 * μ * (∑ n, ∑ i, w n i) + 262144 * (μ * μ) := by
  have h : ∀ n i, (w n i - μ) * (w n i - μ) = w n i * w n i - 2 * μ * w n i + μ * μ := fun n i => by ring
  simp only [h, sum_add_distrib, sum_sub_distrib, ← mul_sum, sum_const, card_univ, Fintype.card_fin, nsmul_eq_mul]
  ring

-- Each column of the normalised weights sums to one, so their total is 16 and their mean is 1/16384.
theorem var_real (t : Fin 16384 → Fin 16 → ℝ) (hc : ∀ i, (∑ n, t n i) ≠ 0) :
    ((∑ i, (∑ n, t n i * t n i) / ((∑ n, t n i) * (∑ n, t n i))) - 1 / 1024) / 262143
      = (∑ n, ∑ i,
          (t n i / (∑ m, t m i) - (∑ n', ∑ i', t n' i' / (∑ m, t m i')) / 262144)
            * (t n i / (∑ m, t m i) - (∑ n', ∑ i', t n' i' / (∑ m, t m i')) / 262144)) / 262143 := by
  have tot : (∑ n, ∑ i, t n i / (∑ m, t m i)) = 16 := by
    rw [sum_comm]
    simp only [← sum_div, div_self (hc _), sum_const, card_univ, Fintype.card_fin, nsmul_eq_mul]
    norm_num
  have sq : (∑ n, ∑ i, t n i / (∑ m, t m i) * (t n i / (∑ m, t m i)))
      = ∑ i, (∑ n, t n i * t n i) / ((∑ n, t n i) * (∑ n, t n i)) := by
    rw [sum_comm]; simp only [sum_div, div_mul_div_comm]
  rw [sum_sq_dev, tot, sq]
  ring

theorem varK_eq_varR {a : MS.In} {σ : MS.Slots} (hA : ∀ n i, ∃ t : ℝ, 0 < t ∧ MS.attn a σ n i = t) :
    MS.varK a σ = MS.varR a σ := by
  choose t ht0 htA using hA
  have hc : ∀ i, (∑ n, t n i) ≠ 0 := fun i => (sum_pos (fun n _ => ht0 n i) univ_nonempty).ne'
  unfold MS.varK MS.varR MS.meanR MS.attnN MS.sumsq MS.colsum
  simp only [htA, MC.cKN_eq, MC.cNK1_eq, MC.cNK_eq,
    ← EReal.coe_mul, ← EReal.coe_sub, ← coe_sum, div_coe_coe _ _ (hc _), div_coe_coe _ _ (mul_ne_zero (hc _) (hc _)),
    div_coe_coe _ (262144 : ℝ) (by norm_num), div_coe_coe _ (262143 : ℝ) (by norm_num)]
  rw [var_real t hc]

end Cert.Proof.ME

end
-- ==== Proof.MathMain.lean ====
import proofs.«128765_j37245956390967_2_alg».proof.Proof.MathEq

noncomputable section

namespace Cert.Proof.ME

open MR

-- With real inputs the slots stay real, so both rearrangements apply at every iteration.
theorem main_eq' (a : MS.In) (h : a.Real) :
    MS.slotsK a 3 = MS.slotsR a 3 ∧ MS.outVarK a = MS.outVarR a := by
  have hs : ∀ n, MS.slotsK a n = MS.slotsR a n := fun n => by
    induction n with
    | zero => rfl
    | succ n ih =>
      show MS.nextK a (MS.slotsK a n) = MS.nextR a (MS.slotsR a n)
      have e : MS.updK a (MS.slotsK a n) = MS.updR a (MS.slotsK a n) := funext fun i => funext fun d =>
        upd_eq (fun m => attn_pos h (slotsK_real h n) m i) fun m => V_real h m d
      rw [← ih]; unfold MS.nextK MS.nextR; rw [e]
  have hv : ∀ n, MS.varK a (MS.slotsK a n) = MS.varR a (MS.slotsR a n) := fun n => by
    rw [← hs n]; exact varK_eq_varR (attn_pos h (slotsK_real h n))
  exact ⟨hs 3, by unfold MS.outVarK MS.outVarR; rw [hv 0, hv 1, hv 2]⟩

end Cert.Proof.ME

end
-- ==== Proof.RefFns.lean ====
import proofs.«128765_j37245956390967_2_alg».proof.Proof.Gen.ReferenceIdeal

noncomputable section

namespace Cert.Proof.RF

open Cert.ReferenceIdeal Cert.ReferenceIdeal.Gen Idealize.ShloMosaic Idealize.SL.Sem

variable {F : FTy → Type} [FloatOps F]

-- The shape facts a layer norm of the rows of an r × n array is spelt with.
structure LnShape (r n : ℕ) : Prop where
  red' : (⟨2, ![r, n]⟩ : Shape).ReducesTo [1] ⟨1, ![r]⟩
  red : (⟨2, ![r, n]⟩ : Shape).Reduces [1] ⟨1, ![r]⟩
  col : (⟨1, ![r]⟩ : Shape).BroadcastsInDim ⟨2, ![r, 1]⟩ ![0]
  scal : (⟨0, ![]⟩ : Shape).BroadcastsInDim ⟨2, ![r, 1]⟩ ![]
  cols : (⟨2, ![r, 1]⟩ : Shape).BroadcastsInDim ⟨2, ![r, n]⟩ ![0, 1]
  row : (⟨1, ![n]⟩ : Shape).BroadcastsInDim ⟨2, ![1, n]⟩ ![1]
  rows : (⟨2, ![1, n]⟩ : Shape).BroadcastsInDim ⟨2, ![r, n]⟩ ![0, 1]

section LN
variable {r n : ℕ} (S : LnShape r n) (N : BitVec 32) (x : Vec F ⟨2, ![r, n]⟩ .f32)

-- The row sums divided by the constant N, as a column.
def hMean : Vec F ⟨2, ![r, 1]⟩ .f32 :=
  Host.divf (broadcastInDim ⟨2, ![r, 1]⟩ ![0] S.col (Host.reduceAdd x (constant S_ .f32 0x00000000#32) S.red' h_S_)) (broadcastInDim ⟨2, ![r, 1]⟩ ![] S.scal (constant S_ .f32 N))

def hCen : Vec F ⟨2, ![r, n]⟩ .f32 :=
  subf x (broadcastInDim ⟨2, ![r, n]⟩ ![0, 1] S.cols (hMean S N x))

-- Layer norm of the rows: ((x − μ) · rsqrt(σ² + ε)) · w + b, the variance being the row mean of the squared centred entries.
def hLn (w b : Vec F ⟨1, ![n]⟩ .f32) : Vec F ⟨2, ![r, n]⟩ .f32 :=
  addf (mulf (mulf (hCen S N x) (broadcastInDim ⟨2, ![r, n]⟩ ![0, 1] S.cols (Host.rsqrt (addf (hMean S N (mulf (hCen S N x) (hCen S N x))) (broadcastInDim ⟨2, ![r, 1]⟩ ![] S.scal (constant S_ .f32 0x3727C5AC#32)))))) (broadcastInDim ⟨2, ![r, n]⟩ ![0, 1] S.rows (broadcastInDim ⟨2, ![1, n]⟩ ![1] S.row w))) (broadcastInDim ⟨2, ![r, n]⟩ ![0, 1] S.rows (broadcastInDim ⟨2, ![1, n]⟩ ![1] S.row b))

end LN

theorem ln768 : LnShape 16384 768 :=
  ⟨reducesTo_S16384x768_S16384_d1, by decide, bcast_S16384_S16384x1_0, bcast_S_S16384x1, bcast_S16384x1_S16384x768_0_1, bcast_S768_S1x768_1, bcast_S1x768_S16384x768_0_1⟩

theorem ln256 : LnShape 16 256 :=
  ⟨reducesTo_S16x256_S16_d1, by decide, bcast_S16_S16x1_0, bcast_S_S16x1, bcast_S16x1_S16x256_0_1, bcast_S256_S1x256_1, bcast_S1x256_S16x256_0_1⟩

def hXln (x : Vec F S16384x768 .f32) (w b : Vec F S768 .f32) : Vec F S16384x768 .f32 := hLn ln768 0x44400000#32 x w b

def hLn16 (s : Vec F S16x256 .f32) (w b : Vec F S256 .f32) : Vec F S16x256 .f32 := hLn ln256 0x43800000#32 s w b

-- Keys and values alike: the layer-normalised inputs times a transposed 256 × 768 weight matrix.
def hProj (x : Vec F S16384x768 .f32) (lniw lnib : Vec F S768 .f32) (w : Vec F S256x768 .f32) : Vec F S16384x256 .f32 :=
  Host.dotGeneral dot_S16384x768_S768x256_S16384x256_1_0_0_1_n_n none (hXln x lniw lnib) (transpose S768x256 [1, 0] w transposes_S256x768_S768x256_1_0)

def hQ (s : Vec F S16x256 .f32) (lnsw lnsb : Vec F S256 .f32) (wq : Vec F S256x256 .f32) : Vec F S16x256 .f32 :=
  mulf (Host.dotGeneral dot_S16x256_S256x256_S16x256_1_0_0_1_n_n none (hLn16 s lnsw lnsb) (transpose S256x256 [1, 0] wq transposes_S256x256_S256x256_1_0)) (broadcastInDim S16x256 ![] bcast_S_S16x256 (constant S_ .f32 0x3D800000#32))

def hLogits (k : Vec F S16384x256 .f32) (q : Vec F S16x256 .f32) : Vec F S16384x16 .f32 :=
  Host.dotGeneral dot_S16384x256_S256x16_S16384x16_1_0_0_1_n_n none k (transpose S256x16 [1, 0] q transposes_S16x256_S256x16_1_0)

def hEx (l : Vec F S16384x16 .f32) : Vec F S16384x16 .f32 :=
  Host.exp (subf l (broadcastInDim S16384x16 ![0, 1] bcast_S16384x1_S16384x16_0_1 (broadcastInDim S16384x1 ![0] bcast_S16384_S16384x1_0 (maximumf (broadcastInDim S16384 ![] bcast_S_S16384 (constant S_ .f32 0xFF800000#32)) (Host.reduce FloatOps.maximumf l (constant S_ .f32 0xFF800000#32) reducesTo_S16384x16_S16384_d1 h_S_)))))

def hAttn (l : Vec F S16384x16 .f32) : Vec F S16384x16 .f32 :=
  addf (Host.divf (hEx l) (broadcastInDim S16384x16 ![0, 1] bcast_S16384x1_S16384x16_0_1 (broadcastInDim S16384x1 ![0] bcast_S16384_S16384x1_0 (Host.reduceAdd (hEx l) (constant S_ .f32 0x00000000#32) reducesTo_S16384x16_S16384_d1 h_S_)))) (broadcastInDim S16384x16 ![] bcast_S_S16384x16 (constant S_ .f32 0x322BCC77#32))

def hAttnN (l : Vec F S16384x16 .f32) : Vec F S16384x16 .f32 :=
  Host.divf (hAttn l) (broadcastInDim S16384x16 ![0, 1] bcast_S1x16_S16384x16_0_1 (broadcastInDim S1x16 ![1] bcast_S16_S1x16_1 (Host.reduceAdd (hAttn l) (constant S_ .f32 0x00000000#32) reducesTo_S16384x16_S16_d0 h_S_)))

def hCenN (l : Vec F S16384x16 .f32) : Vec F S16384x16 .f32 :=
  subf (hAttnN l) (broadcastInDim S16384x16 ![] bcast_S_S16384x16 (Host.divf (Host.reduceAdd (hAttnN l) (constant S_ .f32 0x00000000#32) reducesTo_S16384x16_S_d0_1 h_S_) (constant S_ .f32 0x48800000#32)))

def hVarT (l : Vec F S16384x16 .f32) : Vec F S_ .f32 :=
  Host.divf (Host.reduceAdd (mulf (hCenN l) (hCenN l)) (constant S_ .f32 0x00000000#32) reducesTo_S16384x16_S_d0_1 h_S_) (constant S_ .f32 0x487FFFC0#32)

def hUpd (l : Vec F S16384x16 .f32) (v : Vec F S16384x256 .f32) : Vec F S16x256 .f32 :=
  Host.dotGeneral dot_S16x16384_S16384x256_S16x256_1_0_0_1_n_n none (transpose S16x16384 [1, 0] (hAttnN l) transposes_S16384x16_S16x16384_1_0) v

-- Either gate projection: u · Wᵀ + b.
def hGate (u : Vec F S16x256 .f32) (w : Vec F S768x256 .f32) (b : Vec F S768 .f32) : Vec F S16x768 .f32 :=
  addf (Host.dotGeneral dot_S16x256_S256x768_S16x768_1_0_0_1_n_n none u (transpose S256x768 [1, 0] w transposes_S768x256_S256x768_1_0)) (broadcastInDim S16x768 ![0, 1] bcast_S1x768_S16x768_0_1 (broadcastInDim S1x768 ![1] bcast_S768_S1x768_1 b))

-- 1 / (1 + exp(−t)) of the sum of the two 256-wide blocks at column offset off.
def hSig (off : ℕ) (h : S16x768.Slices ![0, off] S16x256) (gi gh : Vec F S16x768 .f32) : Vec F S16x256 .f32 :=
  Host.divf (broadcastInDim S16x256 ![] bcast_S_S16x256 (constant S_ .f32 0x3F800000#32)) (addf (broadcastInDim S16x256 ![] bcast_S_S16x256 (constant S_ .f32 0x3F800000#32)) (Host.exp (Host.negf (addf (extractStridedSlice S16x256 ![0, off] gi h) (extractStridedSlice S16x256 ![0, off] gh h)))))

def hGru (gi gh : Vec F S16x768 .f32) (s : Vec F S16x256 .f32) : Vec F S16x256 .f32 :=
  addf (mulf (subf (broadcastInDim S16x256 ![] bcast_S_S16x256 (constant S_ .f32 0x3F800000#32)) (hSig 256 slices_S16x768_S16x256_0_256 gi gh)) (Host.tanh (addf (extractStridedSlice S16x256 ![0, 512] gi slices_S16x768_S16x256_0_512) (mulf (hSig 0 slices_S16x768_S16x256_0_0 gi gh) (extractStridedSlice S16x256 ![0, 512] gh slices_S16x768_S16x256_0_512))))) (mulf (hSig 256 slices_S16x768_S16x256_0_256 gi gh) s)

def hMlp (g : Vec F S16x256 .f32) (lnmw lnmb : Vec F S256 .f32) (w1 : Vec F S512x256 .f32) (b1 : Vec F S512 .f32)
    (w2 : Vec F S256x512 .f32) (b2 : Vec F S256 .f32) : Vec F S16x256 .f32 :=
  addf g (addf (Host.dotGeneral dot_S16x512_S512x256_S16x256_1_0_0_1_n_n none (maximumf (addf (Host.dotGeneral dot_S16x256_S256x512_S16x512_1_0_0_1_n_n none (hLn16 g lnmw lnmb) (transpose S256x512 [1, 0] w1 transposes_S512x256_S256x512_1_0)) (broadcastInDim S16x512 ![0, 1] bcast_S1x512_S16x512_0_1 (broadcastInDim S1x512 ![1] bcast_S512_S1x512_1 b1))) (broadcastInDim S16x512 ![] bcast_S_S16x512 (constant S_ .f32 0x00000000#32))) (transpose S512x256 [1, 0] w2 transposes_S256x512_S512x256_1_0)) (broadcastInDim S16x256 ![0, 1] bcast_S1x256_S16x256_0_1 (broadcastInDim S1x256 ![1] bcast_S256_S1x256_1 b2)))

-- The mean of three scalars, spelt as a sum over the three laid side by side.
def hOutVar (t : Fin 3 → Vec F S_ .f32) : Vec F S_ .f32 :=
  Host.divf (Host.reduceAdd (concatenate S3 0 (List.ofFn fun k => ⟨S1, broadcastInDim S1 ![] bcast_S_S1 (t k)⟩) concatenates_S1_S1_S1_S3_d0) (constant S_ .f32 0x00000000#32) reducesTo_S3_S_d0 h_S_) (constant S_ .f32 0x40400000#32)

end Cert.Proof.RF

end
-- ==== Proof.RefIdent.lean ====
import proofs.«128765_j37245956390967_2_alg».proof.Proof.Gen.ReferenceIdeal.Run
import proofs.«128765_j37245956390967_2_alg».proof.Proof.RefFns

noncomputable section

namespace Cert.Proof.RRead

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F] (V0 : Valuation τ sig (Elt F))

abbrev aX := V0 (Proc.devRef .tc main_arg0)
abbrev aLniw := V0 (Proc.devRef .tc main_arg1)
abbrev aLnib := V0 (Proc.devRef .tc main_arg2)
abbrev aLnsw := V0 (Proc.devRef .tc main_arg3)
abbrev aLnsb := V0 (Proc.devRef .tc main_arg4)
abbrev aLnmw := V0 (Proc.devRef .tc main_arg5)
abbrev aLnmb := V0 (Proc.devRef .tc main_arg6)
abbrev aS0 := V0 (Proc.devRef .tc main_arg7)
abbrev aWq := V0 (Proc.devRef .tc main_arg8)
abbrev aWk := V0 (Proc.devRef .tc main_arg9)
abbrev aWv := V0 (Proc.devRef .tc main_arg10)
abbrev aWih := V0 (Proc.devRef .tc main_arg11)
abbrev aWhh := V0 (Proc.devRef .tc main_arg12)
abbrev aBih := V0 (Proc.devRef .tc main_arg13)
abbrev aBhh := V0 (Proc.devRef .tc main_arg14)
abbrev aW1 := V0 (Proc.devRef .tc main_arg15)
abbrev aB1 := V0 (Proc.devRef .tc main_arg16)
abbrev aW2 := V0 (Proc.devRef .tc main_arg17)
abbrev aB2 := V0 (Proc.devRef .tc main_arg18)

def outSlotsTerm : Vec F S16x256 .f32 :=
  addf (res_main_v383 V0) (addf (Host.dotGeneral dot_S16x512_S512x256_S16x256_1_0_0_1_n_n none (maximumf (addf (Host.dotGeneral dot_S16x256_S256x512_S16x512_1_0_0_1_n_n none (addf (mulf (mulf (subf (res_main_v383 V0) (broadcastInDim S16x256 ![0, 1] bcast_S16x1_S16x256_0_1 (res_main_v387 V0))) (broadcastInDim S16x256 ![0, 1] bcast_S16x1_S16x256_0_1 (Host.rsqrt (addf (Host.divf (broadcastInDim S16x1 ![0] bcast_S16_S16x1_0 (Host.reduceAdd (mulf (res_main_v389 V0) (res_main_v389 V0)) (constant S_ .f32 0x00000000#32) reducesTo_S16x256_S16_d1 h_S_)) (broadcastInDim S16x1 ![] bcast_S_S16x1 (constant S_ .f32 0x43800000#32))) (broadcastInDim S16x1 ![] bcast_S_S16x1 (constant S_ .f32 0x3727C5AC#32)))))) (broadcastInDim S16x256 ![0, 1] bcast_S1x256_S16x256_0_1 (broadcastInDim S1x256 ![1] bcast_S256_S1x256_1 (V0 (Proc.devRef .tc main_arg5))))) (broadcastInDim S16x256 ![0, 1] bcast_S1x256_S16x256_0_1 (broadcastInDim S1x256 ![1] bcast_S256_S1x256_1 (V0 (Proc.devRef .tc main_arg6))))) (transpose S256x512 [1, 0] (V0 (Proc.devRef .tc main_arg15)) transposes_S512x256_S256x512_1_0)) (broadcastInDim S16x512 ![0, 1] bcast_S1x512_S16x512_0_1 (broadcastInDim S1x512 ![1] bcast_S512_S1x512_1 (V0 (Proc.devRef .tc main_arg16))))) (broadcastInDim S16x512 ![] bcast_S_S16x512 (constant S_ .f32 0x00000000#32))) (transpose S512x256 [1, 0] (V0 (Proc.devRef .tc main_arg17)) transposes_S256x512_S512x256_1_0)) (broadcastInDim S16x256 ![0, 1] bcast_S1x256_S16x256_0_1 (broadcastInDim S1x256 ![1] bcast_S256_S1x256_1 (V0 (Proc.devRef .tc main_arg18)))))

def outVarTerm : Vec F S_ .f32 :=
  Host.divf (Host.reduceAdd (concatenate S3 0 [⟨S1, (broadcastInDim S1 ![] bcast_S_S1 (Host.divf (Host.reduceAdd (mulf (res_main_v78 V0) (res_main_v78 V0)) (constant S_ .f32 0x00000000#32) reducesTo_S16384x16_S_d0_1 h_S_) (constant S_ .f32 0x487FFFC0#32)))⟩, ⟨S1, (broadcastInDim S1 ![] bcast_S_S1 (Host.divf (Host.reduceAdd (mulf (res_main_v209 V0) (res_main_v209 V0)) (constant S_ .f32 0x00000000#32) reducesTo_S16384x16_S_d0_1 h_S_) (constant S_ .f32 0x487FFFC0#32)))⟩, ⟨S1, (broadcastInDim S1 ![] bcast_S_S1 (Host.divf (Host.reduceAdd (mulf (res_main_v340 V0) (res_main_v340 V0)) (constant S_ .f32 0x00000000#32) reducesTo_S16384x16_S_d0_1 h_S_) (constant S_ .f32 0x487FFFC0#32)))⟩] concatenates_S1_S1_S1_S3_d0) (constant S_ .f32 0x00000000#32) reducesTo_S3_S_d0 h_S_) (constant S_ .f32 0x40400000#32)

def logitsOf (s : Vec F S16x256 .f32) : Vec F S16384x16 .f32 :=
  RF.hLogits (res_main_v25 V0) (RF.hQ s (aLnsw V0) (aLnsb V0) (aWq V0))

-- One iteration from slots s over the run's keys and values: attention, updates, the GRU cell, the residual MLP.
def nextOf (s : Vec F S16x256 .f32) : Vec F S16x256 .f32 :=
  RF.hMlp (RF.hGru (RF.hGate (RF.hUpd (logitsOf V0 s) (res_main_v27 V0)) (aWih V0) (aBih V0)) (RF.hGate s (aWhh V0) (aBhh V0)) s)
    (aLnmw V0) (aLnmb V0) (aW1 V0) (aB1 V0) (aW2 V0) (aB2 V0)

def varOf (s : Vec F S16x256 .f32) : Vec F S_ .f32 := RF.hVarT (logitsOf V0 s)

-- Unfolding the run's named sub-terms: the results are three iterations from the initial slots and the mean of their variance terms.
theorem outSlots_iter : outSlotsTerm V0 = (nextOf V0)^[3] (aS0 V0) := rfl

theorem outVar_iter : outVarTerm V0 = RF.hOutVar fun k : Fin 3 => varOf V0 ((nextOf V0)^[k] (aS0 V0)) := rfl

end Cert.Proof.RRead

end
-- ==== Proof.RReadLN.lean ====
import proofs.«128765_j37245956390967_2_alg».proof.Proof.RefFns
import proofs.«128765_j37245956390967_2_alg».proof.Proof.MSpec
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import Idealize.ShloMosaic.Lib.ValueLayout
import Idealize.ShloMosaic.Lib.StackMember

noncomputable section

namespace Cert.Proof.RRead

open Cert.ReferenceIdeal Cert.ReferenceIdeal.Gen Idealize.ShloMosaic Idealize.ShloMosaic.ValueIdx Idealize.SL.Sem Finset

section Tools
variable {α : Type} {r c : ℕ}

theorem val_eq_ite {k : ℕ} (p : Fin k) : p.val = if k = 1 then 0 else p.val := by
  have := p.isLt
  split <;> omega

-- A vector made a column, a column repeated along the rows, a vector made a row.
theorem bcast_vec_col_apply (h : (⟨1, ![r]⟩ : Shape).BroadcastsInDim ⟨2, ![r, 1]⟩ ![0])
    (x : (⟨1, ![r]⟩ : Shape).Idx → α) (p : Fin r) :
    broadcastInDim ⟨2, ![r, 1]⟩ ![0] h x (ix2 p 0) = x (ix1 p) :=
  broadcastInDim_apply _ h x _ _ fun a => match a with
    | ⟨0, _⟩ => val_eq_ite p

theorem bcast_col_apply (h : (⟨2, ![r, 1]⟩ : Shape).BroadcastsInDim ⟨2, ![r, c]⟩ ![0, 1])
    (x : (⟨2, ![r, 1]⟩ : Shape).Idx → α) (p : Fin r) (q : Fin c) :
    broadcastInDim ⟨2, ![r, c]⟩ ![0, 1] h x (ix2 p q) = x (ix2 p 0) :=
  broadcastInDim_apply _ h x _ _ fun a => match a with
    | ⟨0, _⟩ => val_eq_ite p
    | ⟨1, _⟩ => rfl

theorem bcast_vec_row_apply (h : (⟨1, ![c]⟩ : Shape).BroadcastsInDim ⟨2, ![1, c]⟩ ![1])
    (x : (⟨1, ![c]⟩ : Shape).Idx → α) (q : Fin c) :
    broadcastInDim ⟨2, ![1, c]⟩ ![1] h x (ix2 0 q) = x (ix1 q) :=
  broadcastInDim_apply _ h x _ _ fun a => match a with
    | ⟨0, _⟩ => val_eq_ite q

theorem lift_row (h : (⟨2, ![r, c]⟩ : Shape).Reduces [1] ⟨1, ![r]⟩) (p : Fin r) (q : Fin c) :
    h.lift (ix1 p) q = ix2 p q := by
  funext a; match a with | ⟨0, _⟩ => rfl | ⟨1, _⟩ => rfl

-- A sum along the rows starting from zero is the sum over the row's coordinates.
theorem hostSum_row_apply (h' : (⟨2, ![r, c]⟩ : Shape).ReducesTo [1] ⟨1, ![r]⟩) (h : (⟨2, ![r, c]⟩ : Shape).Reduces [1] ⟨1, ![r]⟩)
    {u : Shape} (hu : 0 < u.numel) (x : FVec Ideal ⟨2, ![r, c]⟩ .f32) (p : Fin r) :
    Host.reduceAdd (F := Ideal) x (constant (F := Ideal) u .f32 0x00000000#32) h' hu (ix1 p) = ∑ q : Fin c, x (ix2 p q) := by
  rw [hostReduceAdd_apply, Ideal.hostReduceAdd_single h' h, constant_apply, Ideal.ofBits_zero_f32, zero_add]
  exact Finset.sum_congr rfl fun q _ => congrArg x (lift_row h p q)

theorem slice768_apply (off : ℕ) (hoff : off + 256 ≤ 768) (g : (⟨2, ![16, 768]⟩ : Shape).Idx → α)
    (h : (⟨2, ![16, 768]⟩ : Shape).Slices ![0, off] ⟨2, ![16, 256]⟩) (i : Fin 16) (j : Fin 256) :
    extractStridedSlice ⟨2, ![16, 256]⟩ ![0, off] g h (ix2 i j) = g (ix2 i (MS.col off hoff j)) :=
  slice2_axis1_apply off g h i j _ rfl

variable {s : Shape} (v : FVec Ideal s .f32) (i : s.Idx)
theorem hostRsqrt_apply : Host.rsqrt (F := Ideal) v i = Ideal.rsqrt (v i) := rfl
theorem hostExp_apply : Host.exp (F := Ideal) v i = Ideal.exp (v i) := rfl
theorem hostTanh_apply : Host.tanh (F := Ideal) v i = Ideal.tanh (v i) := rfl
theorem hostNegf_apply : Host.negf (F := Ideal) v i = -(v i) := rfl

end Tools

section LN
variable {r n : ℕ} (S : RF.LnShape r n) (N : BitVec 32) (x : FVec Ideal ⟨2, ![r, n]⟩ .f32)

theorem hMean_apply (i : Fin r) :
    RF.hMean (F := Ideal) S N x (ix2 i 0) = MS.mean (Ideal.ofBits .f32 N) (fun i j => x (ix2 i j)) i := by
  unfold RF.hMean
  rw [hostDivf_apply, bcast_vec_col_apply, hostSum_row_apply S.red' S.red, broadcastInDim_scalar_apply, constant_apply]
  rfl

theorem hCen_apply (i : Fin r) (j : Fin n) :
    RF.hCen (F := Ideal) S N x (ix2 i j) = MS.cen (Ideal.ofBits .f32 N) (fun i j => x (ix2 i j)) i j := by
  unfold RF.hCen
  rw [subf_apply, bcast_col_apply, hMean_apply]
  rfl

-- The layer norm read at (i, j): the same operations in the same order on the entries.
theorem hLn_apply (w b : FVec Ideal ⟨1, ![n]⟩ .f32) (X : Fin r → Fin n → EReal) (W B : Fin n → EReal)
    (hx : ∀ i j, x (ix2 i j) = X i j) (hw : ∀ j, w (ix1 j) = W j) (hb : ∀ j, b (ix1 j) = B j) (i : Fin r) (j : Fin n) :
    RF.hLn (F := Ideal) S N x w b (ix2 i j) = MS.ln (Ideal.ofBits .f32 N) X W B i j := by
  obtain rfl : (fun i j => x (ix2 i j)) = X := funext₂ hx
  unfold RF.hLn MS.ln MS.var
  rw [addf_apply, mulf_apply, mulf_apply, hCen_apply, bcast_col_apply, broadcastInDim_oneRow_apply, bcast_vec_row_apply,
    broadcastInDim_oneRow_apply, bcast_vec_row_apply, hostRsqrt_apply, addf_apply, hMean_apply, broadcastInDim_scalar_apply,
    constant_apply, hw, hb]
  unfold MS.mean
  simp only [mulf_apply, hCen_apply]
  rfl

end LN

section Stages
open RF

variable (a : MS.In)

theorem hLn16_apply (γ : MS.Slots) (g : FVec Ideal S16x256 .f32) (w b : FVec Ideal S256 .f32) (W B : Fin 256 → EReal)
    (hg : ∀ i j, g (ix2 i j) = γ i j) (hw : ∀ d, w (ix1 d) = W d) (hb : ∀ d, b (ix1 d) = B d) (i : Fin 16) (d : Fin 256) :
    hLn16 (F := Ideal) g w b (ix2 i d) = MS.ln MS.c256 γ W B i d :=
  hLn_apply _ _ g w b γ W B hg hw hb i d

-- Keys and values: the layer-normalised inputs times the transposed weights W.
theorem hProj_apply (x : FVec Ideal S16384x768 .f32) (lniw lnib : FVec Ideal S768 .f32) (w : FVec Ideal S256x768 .f32)
    (W : Fin 256 → Fin 768 → EReal)
    (hx : ∀ i d, x (ix2 i d) = a.x i d) (hw : ∀ d, lniw (ix1 d) = a.lniw d) (hb : ∀ d, lnib (ix1 d) = a.lnib d)
    (hW : ∀ h d, w (ix2 h d) = W h d) (n : Fin 16384) (h : Fin 256) :
    hProj (F := Ideal) x lniw lnib w (ix2 n h) = MS.mm (MS.xln a) (fun d h => W h d) n h := by
  unfold hProj hXln MS.mm MS.xln
  erw [StackMember.dotGeneral_plain_apply]
  refine Finset.sum_congr rfl fun d _ => ?_
  rw [transpose_ix2_apply, hW]
  exact congrArg (· * W h d) (hLn_apply _ _ x lniw lnib a.x a.lniw a.lnib hx hw hb n d)

theorem hQ_apply (σ : MS.Slots) (s : FVec Ideal S16x256 .f32) (lnsw lnsb : FVec Ideal S256 .f32) (wq : FVec Ideal S256x256 .f32)
    (hs : ∀ i d, s (ix2 i d) = σ i d) (hw : ∀ d, lnsw (ix1 d) = a.lnsw d) (hb : ∀ d, lnsb (ix1 d) = a.lnsb d)
    (hwq : ∀ h d, wq (ix2 h d) = a.wq h d) (i : Fin 16) (j : Fin 256) :
    hQ (F := Ideal) s lnsw lnsb wq (ix2 i j) = MS.q a σ i j := by
  unfold hQ MS.q MS.mm
  rw [mulf_apply, broadcastInDim_scalar_apply, constant_apply]
  erw [StackMember.dotGeneral_plain_apply]
  refine congrArg (· * MS.cScale) (Finset.sum_congr rfl fun d _ => ?_)
  rw [transpose_ix2_apply, hLn16_apply σ s lnsw lnsb a.lnsw a.lnsb hs hw hb, hwq]

-- Either gate projection: Σ_d υ i d · W j d + B j.
theorem hGate_apply (υ : MS.Slots) (u : FVec Ideal S16x256 .f32) (w : FVec Ideal S768x256 .f32) (b : FVec Ideal S768 .f32)
    (W : Fin 768 → Fin 256 → EReal) (B : Fin 768 → EReal)
    (hu : ∀ i d, u (ix2 i d) = υ i d) (hw : ∀ j d, w (ix2 j d) = W j d) (hb : ∀ j, b (ix1 j) = B j)
    (i : Fin 16) (j : Fin 768) : hGate (F := Ideal) u w b (ix2 i j) = (∑ d, υ i d * W j d) + B j := by
  unfold hGate
  rw [addf_apply, broadcastInDim_oneRow_apply, bcast_vec_row_apply, hb]
  erw [StackMember.dotGeneral_plain_apply]
  refine congrArg (· + B j) (Finset.sum_congr rfl fun d _ => ?_)
  rw [transpose_ix2_apply, hu, hw]

theorem hGru_apply (υ σ : MS.Slots) (gi gh : FVec Ideal S16x768 .f32) (s : FVec Ideal S16x256 .f32)
    (hgi : ∀ i j, gi (ix2 i j) = MS.gi a υ i j) (hgh : ∀ i j, gh (ix2 i j) = MS.gh a σ i j)
    (hs : ∀ i d, s (ix2 i d) = σ i d) (i : Fin 16) (j : Fin 256) :
    hGru (F := Ideal) gi gh s (ix2 i j) = MS.gru a υ σ i j := by
  unfold hGru hSig MS.gru MS.c1 Ideal.logistic
  simp only [addf_apply, mulf_apply, subf_apply, hostDivf_apply, hostExp_apply, hostTanh_apply,
    hostNegf_apply, slice768_apply 0 (by decide), slice768_apply 256 (by decide), slice768_apply 512 (by decide),
    hgi, hgh, hs, Ideal.ofBits_one_f32]
  rw [broadcastInDim_scalar_apply, constant_apply, Ideal.ofBits_one_f32]

theorem hMlp_apply (γ : MS.Slots) (g : FVec Ideal S16x256 .f32) (lnmw lnmb : FVec Ideal S256 .f32)
    (w1 : FVec Ideal S512x256 .f32) (b1 : FVec Ideal S512 .f32) (w2 : FVec Ideal S256x512 .f32) (b2 : FVec Ideal S256 .f32)
    (hg : ∀ i j, g (ix2 i j) = γ i j) (hw : ∀ d, lnmw (ix1 d) = a.lnmw d) (hb : ∀ d, lnmb (ix1 d) = a.lnmb d)
    (hw1 : ∀ m d, w1 (ix2 m d) = a.w1 m d) (hb1 : ∀ m, b1 (ix1 m) = a.b1 m)
    (hw2 : ∀ j m, w2 (ix2 j m) = a.w2 j m) (hb2 : ∀ j, b2 (ix1 j) = a.b2 j) (i : Fin 16) (j : Fin 256) :
    hMlp (F := Ideal) g lnmw lnmb w1 b1 w2 b2 (ix2 i j) = MS.mlp a γ i j := by
  unfold hMlp MS.mlp
  rw [addf_apply, addf_apply, hg, broadcastInDim_oneRow_apply, bcast_vec_row_apply, hb2]
  erw [StackMember.dotGeneral_plain_apply]
  refine congrArg (γ i j + ·) (congrArg (· + a.b2 j) (Finset.sum_congr rfl fun m _ => ?_))
  rw [transpose_ix2_apply, hw2, maximumf_apply, broadcastInDim_scalar_apply, constant_apply, Ideal.ofBits_zero_f32, addf_apply,
    broadcastInDim_oneRow_apply, bcast_vec_row_apply, hb1]
  erw [StackMember.dotGeneral_plain_apply]
  unfold MS.hid
  refine congrArg (max · 0 * a.w2 j m) (congrArg (· + a.b1 m) (Finset.sum_congr rfl fun d _ => ?_))
  rw [transpose_ix2_apply, hLn16_apply γ g lnmw lnmb a.lnmw a.lnmb hg hw hb, hw1]

end Stages

end Cert.Proof.RRead

end
-- ==== Proof.RReadAttn.lean ====
import proofs.«128765_j37245956390967_2_alg».proof.Proof.RReadLN

noncomputable section

namespace Cert.Proof.RRead

open Cert.ReferenceIdeal Cert.ReferenceIdeal.Gen Idealize.ShloMosaic Idealize.ShloMosaic.ValueIdx Idealize.SL.Sem Finset

section Reduce
variable {r c : ℕ}

theorem lift_col (h : (⟨2, ![r, c]⟩ : Shape).Reduces [0] ⟨1, ![c]⟩) (q : Fin c) (p : Fin r) :
    h.lift (ix1 q) p = ix2 p q := by
  funext a; match a with | ⟨0, _⟩ => rfl | ⟨1, _⟩ => rfl

-- Sums down the columns and of every entry, starting from zero; the maximum along the rows as a fold of max from its initial value.
theorem hostSum_col_apply (h' : (⟨2, ![r, c]⟩ : Shape).ReducesTo [0] ⟨1, ![c]⟩) (h : (⟨2, ![r, c]⟩ : Shape).Reduces [0] ⟨1, ![c]⟩)
    {u : Shape} (hu : 0 < u.numel) (x : FVec Ideal ⟨2, ![r, c]⟩ .f32) (q : Fin c) :
    Host.reduceAdd (F := Ideal) x (constant (F := Ideal) u .f32 0x00000000#32) h' hu (ix1 q) = ∑ p : Fin r, x (ix2 p q) := by
  rw [hostReduceAdd_apply, Ideal.hostReduceAdd_single h' h, constant_apply, Ideal.ofBits_zero_f32, zero_add]
  exact Finset.sum_congr rfl fun p _ => congrArg x (lift_col h q p)

theorem hostSum_all_apply (h' : (⟨2, ![r, c]⟩ : Shape).ReducesTo [0, 1] ⟨0, ![]⟩)
    {u : Shape} (hu : 0 < u.numel) (x : FVec Ideal ⟨2, ![r, c]⟩ .f32) :
    Host.reduceAdd (F := Ideal) x (constant (F := Ideal) u .f32 0x00000000#32) h' hu ix0 = ∑ p : Fin r, ∑ q : Fin c, x (ix2 p q) := by
  rw [hostReduceAdd_apply, Ideal.hostReduceAdd_total h' (fun b => b.elim0), constant_apply, Ideal.ofBits_zero_f32, zero_add, sum_idx2]

theorem hostMax_row_apply (h' : (⟨2, ![r, c]⟩ : Shape).ReducesTo [1] ⟨1, ![r]⟩) (h : (⟨2, ![r, c]⟩ : Shape).Reduces [1] ⟨1, ![r]⟩)
    {u : Shape} (hu : 0 < u.numel) (x : FVec Ideal ⟨2, ![r, c]⟩ .f32) (b : BitVec 32) (p : Fin r) :
    Host.reduce (FloatOps.maximumf (F := Ideal) (φ := .f32)) x (constant (F := Ideal) u .f32 b) h' hu (ix1 p)
      = (Finset.univ : Finset (Fin c)).fold max (Ideal.ofBits .f32 b) (fun q => x (ix2 p q)) := by
  rw [Host.reduce_eq_fold_single _ x _ h' h hu, constant_apply,
    show (x ∘ h.lift (ix1 p)) = fun q : Fin c => x (ix2 p q) from funext fun q => congrArg x (lift_row h p q)]
  rfl

end Reduce

section Stages
variable (a : MS.In) (σ : MS.Slots)

theorem hLogits_apply (k : FVec Ideal S16384x256 .f32) (q : FVec Ideal S16x256 .f32)
    (hk : ∀ n d, k (ix2 n d) = MS.K a n d) (hq : ∀ i d, q (ix2 i d) = MS.q a σ i d) (n : Fin 16384) (i : Fin 16) :
    RF.hLogits (F := Ideal) k q (ix2 n i) = MS.logits a σ n i := by
  unfold RF.hLogits MS.logits
  erw [StackMember.dotGeneral_plain_apply]
  refine Finset.sum_congr rfl fun d _ => ?_
  rw [transpose_ix2_apply, hk, hq]

variable (l : FVec Ideal S16384x16 .f32) (hl : ∀ n i, l (ix2 n i) = MS.logits a σ n i)
include hl

theorem hEx_apply (n : Fin 16384) (i : Fin 16) : RF.hEx (F := Ideal) l (ix2 n i) = MS.ex a σ n i := by
  unfold RF.hEx
  rw [hostExp_apply, subf_apply, bcast_col_apply, bcast_vec_col_apply, maximumf_apply, broadcastInDim_scalar_apply,
    constant_apply, hostMax_row_apply _ (by decide)]
  unfold MS.ex MS.rowMax MS.cNegInf
  simp only [hl]

theorem hAttn_apply (n : Fin 16384) (i : Fin 16) : RF.hAttn (F := Ideal) l (ix2 n i) = MS.attn a σ n i := by
  unfold RF.hAttn
  rw [addf_apply, hostDivf_apply, bcast_col_apply, bcast_vec_col_apply, hostSum_row_apply _ (by decide),
    broadcastInDim_scalar_apply, constant_apply]
  unfold MS.attn MS.epsAttn
  simp only [hEx_apply a σ l hl]

theorem hAttnN_apply (n : Fin 16384) (i : Fin 16) : RF.hAttnN (F := Ideal) l (ix2 n i) = MS.attnN a σ n i := by
  unfold RF.hAttnN
  rw [hostDivf_apply, broadcastInDim_oneRow_apply, bcast_vec_row_apply, hostSum_col_apply _ (by decide)]
  unfold MS.attnN MS.colsum
  simp only [hAttn_apply a σ l hl]

theorem hCenN_apply (n : Fin 16384) (i : Fin 16) : RF.hCenN (F := Ideal) l (ix2 n i) = MS.attnN a σ n i - MS.meanR a σ := by
  unfold RF.hCenN
  rw [subf_apply, broadcastInDim_scalar_apply, hostDivf_apply, hostSum_all_apply, constant_apply]
  unfold MS.meanR MS.cNK
  simp only [hAttnN_apply a σ l hl]

theorem hVarT_apply : RF.hVarT (F := Ideal) l ix0 = MS.varR a σ := by
  unfold RF.hVarT
  rw [hostDivf_apply, hostSum_all_apply, constant_apply]
  unfold MS.varR MS.cNK1
  simp only [mulf_apply, hCenN_apply a σ l hl]

theorem hUpd_apply (v : FVec Ideal S16384x256 .f32) (hv : ∀ n h, v (ix2 n h) = MS.V a n h) (i : Fin 16) (h : Fin 256) :
    RF.hUpd (F := Ideal) l v (ix2 i h) = MS.updR a σ i h := by
  unfold RF.hUpd MS.updR
  erw [StackMember.dotGeneral_plain_apply]
  refine Finset.sum_congr rfl fun n _ => ?_
  rw [transpose_ix2_apply, hAttnN_apply a σ l hl, hv]

end Stages

end Cert.Proof.RRead

end
-- ==== Proof.RReadAll.lean ====
import proofs.«128765_j37245956390967_2_alg».proof.Proof.RefIdent
import proofs.«128765_j37245956390967_2_alg».proof.Proof.RReadAttn
import Idealize.ShloMosaic.Lib.ValueIdxRank1

noncomputable section

namespace Cert.Proof.RRead

open Cert.ReferenceIdeal Cert.ReferenceIdeal.Gen Cert.ReferenceIdeal.Value Idealize.ShloMosaic Idealize.ShloMosaic.ValueIdx Idealize.SL.Sem Finset

def inOf (V0 : Valuation τ sig (Elt Ideal)) : MS.In where
  x := fun i j => aX V0 (ix2 i j)
  lniw := fun j => aLniw V0 (ix1 j)
  lnib := fun j => aLnib V0 (ix1 j)
  lnsw := fun j => aLnsw V0 (ix1 j)
  lnsb := fun j => aLnsb V0 (ix1 j)
  lnmw := fun j => aLnmw V0 (ix1 j)
  lnmb := fun j => aLnmb V0 (ix1 j)
  s0 := fun i j => aS0 V0 (ix2 i j)
  wq := fun i j => aWq V0 (ix2 i j)
  wk := fun i j => aWk V0 (ix2 i j)
  wv := fun i j => aWv V0 (ix2 i j)
  wih := fun i j => aWih V0 (ix2 i j)
  whh := fun i j => aWhh V0 (ix2 i j)
  bih := fun j => aBih V0 (ix1 j)
  bhh := fun j => aBhh V0 (ix1 j)
  w1 := fun i j => aW1 V0 (ix2 i j)
  b1 := fun j => aB1 V0 (ix1 j)
  w2 := fun i j => aW2 V0 (ix2 i j)
  b2 := fun j => aB2 V0 (ix1 j)

variable (V0 : Valuation τ sig (Elt Ideal))

theorem keys_apply (n : Fin 16384) (h : Fin 256) : res_main_v25 V0 (ix2 n h) = MS.K (inOf V0) n h :=
  hProj_apply (inOf V0) (aX V0) (aLniw V0) (aLnib V0) (aWk V0) _ (fun _ _ => rfl) (fun _ => rfl) (fun _ => rfl) (fun _ _ => rfl) n h

theorem vals_apply (n : Fin 16384) (h : Fin 256) : res_main_v27 V0 (ix2 n h) = MS.V (inOf V0) n h :=
  hProj_apply (inOf V0) (aX V0) (aLniw V0) (aLnib V0) (aWv V0) _ (fun _ _ => rfl) (fun _ => rfl) (fun _ => rfl) (fun _ _ => rfl) n h

variable (s : Vec Ideal S16x256 .f32) (σ : MS.Slots) (hs : ∀ i d, s (ix2 i d) = σ i d)
include hs

theorem logitsOf_apply (n : Fin 16384) (i : Fin 16) : logitsOf V0 s (ix2 n i) = MS.logits (inOf V0) σ n i :=
  hLogits_apply (inOf V0) σ _ _ (keys_apply V0)
    (hQ_apply (inOf V0) σ s _ _ _ hs (fun _ => rfl) (fun _ => rfl) (fun _ _ => rfl)) n i

-- One iteration from slots that read as σ reads as the reference's next slots from σ.
theorem nextOf_apply (i : Fin 16) (j : Fin 256) : nextOf V0 s (ix2 i j) = MS.nextR (inOf V0) σ i j :=
  hMlp_apply (inOf V0) _ _ _ _ _ _ _ _
    (hGru_apply (inOf V0) (MS.updR (inOf V0) σ) σ _ _ s
      (hGate_apply _ _ _ _ (inOf V0).wih (inOf V0).bih
        (hUpd_apply (inOf V0) σ _ (logitsOf_apply V0 s σ hs) _ (vals_apply V0)) (fun _ _ => rfl) (fun _ => rfl))
      (hGate_apply σ s _ _ (inOf V0).whh (inOf V0).bhh hs (fun _ _ => rfl) (fun _ => rfl)) hs)
    (fun _ => rfl) (fun _ => rfl) (fun _ _ => rfl) (fun _ => rfl) (fun _ _ => rfl) (fun _ => rfl) i j

theorem varOf_apply : varOf V0 s ix0 = MS.varR (inOf V0) σ :=
  hVarT_apply (inOf V0) σ _ (logitsOf_apply V0 s σ hs)

omit hs

-- The three terms are summed and divided by three.
theorem hOutVar_apply (t : Fin 3 → Vec Ideal S_ .f32) :
    RF.hOutVar (F := Ideal) t ix0 = Ideal.div (∑ k, t k ix0) MS.c3 := by
  unfold RF.hOutVar MS.c3
  rw [hostDivf_apply, constant_apply, hostReduceAdd_apply, Ideal.hostReduceAdd_total reducesTo_S3_S_d0 (fun b => b.elim0),
    constant_apply, Ideal.ofBits_zero_f32, zero_add, ← Equiv.sum_comp (idxEquiv1 (n := 3)).symm]
  refine congrArg (Ideal.div · _) (Finset.sum_congr rfl fun k _ => ?_)
  refine (concatenate_ofFn_apply (t := S3) (s₁ := S1) (N := 3) 0 _ concatenates_S1_S1_S1_S3_d0 rfl 1 rfl (ix1 k) k
    (Nat.div_one _) (ix1 0) (Nat.mod_one _).symm fun b hb => absurd (Subsingleton.elim _ _) hb).trans ?_
  exact broadcastInDim_scalar_apply _ _ _

-- The slots before iteration n, read off the run's iterated terms.
theorem iter_apply : ∀ (n : ℕ) (i : Fin 16) (j : Fin 256), (nextOf V0)^[n] (aS0 V0) (ix2 i j) = MS.slotsR (inOf V0) n i j
  | 0, _, _ => rfl
  | n + 1, i, j => by
    rw [Function.iterate_succ_apply']
    exact nextOf_apply V0 _ _ (iter_apply n) i j

theorem ref_reads :
    (∀ (i : Fin 16) (j : Fin 256), outSlotsTerm V0 (ix2 i j) = MS.slotsR (inOf V0) 3 i j)
      ∧ outVarTerm V0 ix0 = MS.outVarR (inOf V0) := by
  refine ⟨fun i j => ?_, ?_⟩
  · rw [outSlots_iter]; exact iter_apply V0 3 i j
  · rw [outVar_iter, hOutVar_apply, Fin.sum_univ_three, varOf_apply V0 _ _ (iter_apply V0 _),
      varOf_apply V0 _ _ (iter_apply V0 _), varOf_apply V0 _ _ (iter_apply V0 _)]
    rfl

end Cert.Proof.RRead

end
-- ==== Proof.Agree.lean ====
import proofs.«128765_j37245956390967_2_alg».proof.Defs
import proofs.«128765_j37245956390967_2_alg».proof.Proof.PreReal
import Idealize.ShloMosaic.Lib.StableHlo.Run
import Idealize.ShloMosaic.Lib.ValueIdx

noncomputable section

namespace Cert.Proof.Agree

open Idealize.ShloMosaic Idealize.SL.Sem Idealize.ShloMosaic.ValueIdx Idealize.ShloMosaic.StableHlo

open Cert.ReferenceIdeal in
def inOfR (V0 : Valuation τ sig (Elt Ideal)) : MS.In where
  x := fun i j => (V0 (Proc.devRef .tc main_arg0) : Vec Ideal S16384x768 .f32) (ix2 i j)
  lniw := fun j => (V0 (Proc.devRef .tc main_arg1) : Vec Ideal S768 .f32) (ix1 j)
  lnib := fun j => (V0 (Proc.devRef .tc main_arg2) : Vec Ideal S768 .f32) (ix1 j)
  lnsw := fun j => (V0 (Proc.devRef .tc main_arg3) : Vec Ideal S256 .f32) (ix1 j)
  lnsb := fun j => (V0 (Proc.devRef .tc main_arg4) : Vec Ideal S256 .f32) (ix1 j)
  lnmw := fun j => (V0 (Proc.devRef .tc main_arg5) : Vec Ideal S256 .f32) (ix1 j)
  lnmb := fun j => (V0 (Proc.devRef .tc main_arg6) : Vec Ideal S256 .f32) (ix1 j)
  s0 := fun i j => (V0 (Proc.devRef .tc main_arg7) : Vec Ideal S16x256 .f32) (ix2 i j)
  wq := fun i j => (V0 (Proc.devRef .tc main_arg8) : Vec Ideal S256x256 .f32) (ix2 i j)
  wk := fun i j => (V0 (Proc.devRef .tc main_arg9) : Vec Ideal S256x768 .f32) (ix2 i j)
  wv := fun i j => (V0 (Proc.devRef .tc main_arg10) : Vec Ideal S256x768 .f32) (ix2 i j)
  wih := fun i j => (V0 (Proc.devRef .tc main_arg11) : Vec Ideal S768x256 .f32) (ix2 i j)
  whh := fun i j => (V0 (Proc.devRef .tc main_arg12) : Vec Ideal S768x256 .f32) (ix2 i j)
  bih := fun j => (V0 (Proc.devRef .tc main_arg13) : Vec Ideal S768 .f32) (ix1 j)
  bhh := fun j => (V0 (Proc.devRef .tc main_arg14) : Vec Ideal S768 .f32) (ix1 j)
  w1 := fun i j => (V0 (Proc.devRef .tc main_arg15) : Vec Ideal S512x256 .f32) (ix2 i j)
  b1 := fun j => (V0 (Proc.devRef .tc main_arg16) : Vec Ideal S512 .f32) (ix1 j)
  w2 := fun i j => (V0 (Proc.devRef .tc main_arg17) : Vec Ideal S256x512 .f32) (ix2 i j)
  b2 := fun j => (V0 (Proc.devRef .tc main_arg18) : Vec Ideal S256 .f32) (ix1 j)

abbrev MemR := (ℓ : Loc ReferenceIdeal.nD ReferenceIdeal.τ ReferenceIdeal.sig) → Buf (Elt Ideal) ℓ

def Agrees (m : PR.Mem) (m' : MemR) : Prop :=
  ∀ c : Dev KernelIdeal.nD,
    m' ((c.tc : Thread ReferenceIdeal.nD ReferenceIdeal.τ).loc ReferenceIdeal.main_arg0) = PR.arg0 m c
    ∧ m' ((c.tc : Thread ReferenceIdeal.nD ReferenceIdeal.τ).loc ReferenceIdeal.main_arg1) = PR.arg1 m c
    ∧ m' ((c.tc : Thread ReferenceIdeal.nD ReferenceIdeal.τ).loc ReferenceIdeal.main_arg2) = PR.arg2 m c
    ∧ m' ((c.tc : Thread ReferenceIdeal.nD ReferenceIdeal.τ).loc ReferenceIdeal.main_arg3) = PR.arg3 m c
    ∧ m' ((c.tc : Thread ReferenceIdeal.nD ReferenceIdeal.τ).loc ReferenceIdeal.main_arg4) = PR.arg4 m c
    ∧ m' ((c.tc : Thread ReferenceIdeal.nD ReferenceIdeal.τ).loc ReferenceIdeal.main_arg5) = PR.arg5 m c
    ∧ m' ((c.tc : Thread ReferenceIdeal.nD ReferenceIdeal.τ).loc ReferenceIdeal.main_arg6) = PR.arg6 m c
    ∧ m' ((c.tc : Thread ReferenceIdeal.nD ReferenceIdeal.τ).loc ReferenceIdeal.main_arg7) = PR.arg7 m c
    ∧ m' ((c.tc : Thread ReferenceIdeal.nD ReferenceIdeal.τ).loc ReferenceIdeal.main_arg8) = PR.arg8 m c
    ∧ m' ((c.tc : Thread ReferenceIdeal.nD ReferenceIdeal.τ).loc ReferenceIdeal.main_arg9) = PR.arg9 m c
    ∧ m' ((c.tc : Thread ReferenceIdeal.nD ReferenceIdeal.τ).loc ReferenceIdeal.main_arg10) = PR.arg10 m c
    ∧ m' ((c.tc : Thread ReferenceIdeal.nD ReferenceIdeal.τ).loc ReferenceIdeal.main_arg11) = PR.arg11 m c
    ∧ m' ((c.tc : Thread ReferenceIdeal.nD ReferenceIdeal.τ).loc ReferenceIdeal.main_arg12) = PR.arg12 m c
    ∧ m' ((c.tc : Thread ReferenceIdeal.nD ReferenceIdeal.τ).loc ReferenceIdeal.main_arg13) = PR.arg13 m c
    ∧ m' ((c.tc : Thread ReferenceIdeal.nD ReferenceIdeal.τ).loc ReferenceIdeal.main_arg14) = PR.arg14 m c
    ∧ m' ((c.tc : Thread ReferenceIdeal.nD ReferenceIdeal.τ).loc ReferenceIdeal.main_arg15) = PR.arg15 m c
    ∧ m' ((c.tc : Thread ReferenceIdeal.nD ReferenceIdeal.τ).loc ReferenceIdeal.main_arg16) = PR.arg16 m c
    ∧ m' ((c.tc : Thread ReferenceIdeal.nD ReferenceIdeal.τ).loc ReferenceIdeal.main_arg17) = PR.arg17 m c
    ∧ m' ((c.tc : Thread ReferenceIdeal.nD ReferenceIdeal.τ).loc ReferenceIdeal.main_arg18) = PR.arg18 m c

-- Memories that agree on the nineteen arguments give one record of inputs, field by field.
theorem inOf_eq (m : PR.Mem) (m' : MemR) (hagree : Agrees m m') (c : Dev KernelIdeal.nD) :
    inOfR (launchContents m' c) = PR.inOfK m c := by
  obtain ⟨h0, h1, h2, h3, h4, h5, h6, h7, h8, h9, h10, h11, h12, h13, h14, h15, h16, h17, h18⟩ := hagree c
  unfold inOfR PR.inOfK
  congr 1 <;> funext <;> apply congrFun <;> assumption

end Cert.Proof.Agree

end
-- ==== Proof.Bridge.lean ====
import proofs.«128765_j37245956390967_2_alg».proof.Proof.KBridge
import proofs.«128765_j37245956390967_2_alg».proof.Proof.MathMain
import proofs.«128765_j37245956390967_2_alg».proof.Proof.RReadAll
import proofs.«128765_j37245956390967_2_alg».proof.Proof.Agree

noncomputable section

namespace Cert.Proof.Bridge

open Idealize.ShloMosaic Idealize.ShloMosaic.TcCoe Idealize.SL.Sem Idealize.ShloMosaic.ValueIdx Idealize.ShloMosaic.StableHlo

/-- Both results agree: at every index one side is `slotsR` (resp. `outVarR`) of the inputs, the other `slotsK` (resp. `outVarK`) of the same inputs, and on real inputs these coincide. -/
theorem results_bridge [Cert.Pre_finite_inputs.Facts] (m : PR.Mem) (ρ : Dev Cert.KernelIdeal.nD → PrngReg) (m' : Agree.MemR)
    (hpre : Cert.Pre_KernelIdeal m)
    (hagree : Agree.Agrees m m')
    (c : Dev Cert.KernelIdeal.nD) :
    RRead.outSlotsTerm (launchContents m' c) = Cert.KernelIdeal.Run.W4 m ρ c (Proc.devRef .tc Cert.KernelIdeal.main_v18_0)
      ∧ RRead.outVarTerm (launchContents m' c) = Cert.KernelIdeal.Run.W4 m ρ c (Proc.devRef .tc Cert.KernelIdeal.main_v19) := by
  have hr := RRead.ref_reads (launchContents m' c)
  have hm := ME.main_eq' _ (PR.real_of_pre m hpre c)
  have hk := KB.kernel_side m c
  rw [show RRead.inOf (launchContents m' c) = PR.inOfK m c from Agree.inOf_eq m m' hagree c, ← hm.1, ← hm.2] at hr
  refine ⟨funext fun idx => ?_, funext fun idx => ?_⟩
  · rw [show idx = ix2 (n0 := 16) (n1 := 256) (idx 0) (idx 1) from eq_ix2 idx]
    exact (hr.1 _ _).trans ((hk.1 _ _).symm.trans (congrFun (Cert.KernelIdeal.Res.out0_eq m ρ c) _).symm)
  · rw [eq_ix0 idx]
    exact hr.2.trans (hk.2.symm.trans ((congrFun (Cert.KernelIdeal.Res.out1_eq m ρ c) ix0).trans (shapeCast_apply _ _ _ (ix2 0 0) (by decide))).symm)

end Cert.Proof.Bridge

end
-- ==== Proof.lean ====
import proofs.«128765_j37245956390967_2_alg».proof.Defs
import proofs.«128765_j37245956390967_2_alg».proof.Proof.Gen.Kernel
import proofs.«128765_j37245956390967_2_alg».proof.Proof.Gen.KernelIdeal
import proofs.«128765_j37245956390967_2_alg».proof.Proof.Gen.ReferenceIdeal
import proofs.«128765_j37245956390967_2_alg».proof.Proof.Gen.Pre_finite_inputs
import proofs.«128765_j37245956390967_2_alg».proof.Proof.Gen.ReferenceIdeal.Run
import proofs.«128765_j37245956390967_2_alg».proof.Proof.RunB
import proofs.«128765_j37245956390967_2_alg».proof.Proof.RunI
import proofs.«128765_j37245956390967_2_alg».proof.Proof.Bridge
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ =>
  (θ_run (Cert.Kernel.defs (F := Bits)) _ _).mono (fun r h c => by
      and_intros <;> exact (h c _ (Cert.Kernel.Run.mem_uc _ (by decide))).trans (Cert.Kernel.Run.W4_kept m ρ c _ (by decide) (by decide) (by decide) (by decide)))
    (Cert.Kernel.Run.run_all (F := Bits) m ρ)

theorem frame_ki [Cert.KernelIdeal.Facts] [Cert.Pre_finite_inputs.Facts] : Cert.frame_KernelIdeal := fun m ρ _ =>
  (θ_run (Cert.KernelIdeal.defs (F := Ideal)) _ _).mono (fun r h c => by
      and_intros <;> exact (h c _ (Cert.KernelIdeal.Run.mem_uc _ (by decide))).trans (Cert.KernelIdeal.Run.W4_kept m ρ c _ (by decide) (by decide) (by decide) (by decide)))
    (Cert.KernelIdeal.Run.run_all (F := Ideal) m ρ)

theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2.2) (Cert.ReferenceIdeal.Value.run (F := Ideal) m ρ)

-- Both runs end at the same two results: the kernel's are read off its last boundary, the reference's are bridged to them.
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Run.W4 m ρ c (Proc.devRef .tc Cert.KernelIdeal.main_v18_0),
    fun c => Cert.KernelIdeal.Run.W4 m ρ c (Proc.devRef .tc Cert.KernelIdeal.main_v19), ?_, ?_⟩
  · exact (θ_run (Cert.KernelIdeal.defs (F := Ideal)) _ _).mono (fun r h c => by
      refine ⟨h c _ (Cert.KernelIdeal.Run.mem_uc _ (by decide)), h c _ (Cert.KernelIdeal.Run.mem_uc _ (by decide)), ?_⟩
      and_intros <;> exact (h c _ (Cert.KernelIdeal.Run.mem_uc _ (by decide))).trans (Cert.KernelIdeal.Run.W4_kept m ρ c _ (by decide) (by decide) (by decide) (by decide)))
      (Cert.KernelIdeal.Run.run_all (F := Ideal) m ρ)
  · exact (θ_run (Cert.ReferenceIdeal.defs (F := Ideal)) _ _).mono (fun r h c => ⟨
      (h c).1.trans (Cert.Proof.Bridge.results_bridge m ρ m' hpre hagree c).1,
      (h c).2.1.trans (Cert.Proof.Bridge.results_bridge m ρ m' hpre hagree c).2,
      (h c).2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
